-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S128x32 .f32) (main_arg11 : FVec F S32 .f32) (main_arg12 : FVec F S32x1 .f32) (main_arg13 : FVec F S1 .f32) (main_v33 : IVec S_ 1) : IVec S_ 1 :=
  let main_v34 : FVec F S128x32 .f32 := Host.absf main_arg10
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg11
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg12
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S128x128 .f32) (main_arg8 : FVec F S128x128 .f32) (main_arg9 : FVec F S128 .f32) (main_arg10 : FVec F S128x32 .f32) (main_arg11 : FVec F S32 .f32) (main_arg12 : FVec F S32x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x32 .f32) (main_arg11 : FVec F S32 .f32) (main_arg12 : FVec F S32x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S1x32 : Shape := ⟨2, ![1, 32]⟩
abbrev S1x1 : Shape := ⟨2, ![1, 1]⟩
abbrev S64x1 : Shape := ⟨2, ![64, 1]⟩
abbrev S64x128 : Shape := ⟨2, ![64, 128]⟩
abbrev S4000x64 : Shape := ⟨2, ![4000, 64]⟩
abbrev S64x32 : Shape := ⟨2, ![64, 32]⟩

abbrev nBuf : Space → Nat
  | .hbm => 70
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x128, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .bf16⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x1, .i32⟩
  | .hbm, ⟨66, _⟩ => ⟨S1x128, .f32⟩
  | .hbm, ⟨67, _⟩ => ⟨S1x32, .f32⟩
  | .hbm, ⟨68, _⟩ => ⟨S1x1, .f32⟩
  | .hbm, ⟨69, _⟩ => ⟨S64x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S4000x1, .i32⟩
  | .local _ .vmem, ⟨18, _⟩ => ⟨S4000x1, .i32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S128x32, .f32⟩
  | .local _ .vmem, ⟨23, _⟩ => ⟨S1x32, .f32⟩
  | .local _ .vmem, ⟨24, _⟩ => ⟨S32x1, .f32⟩
  | .local _ .vmem, ⟨25, _⟩ => ⟨S1x1, .f32⟩
  | .local _ .vmem, ⟨26, _⟩ => ⟨S64x1, .f32⟩
  | .local _ .vmem, ⟨27, _⟩ => ⟨S64x128, .f32⟩
  | .local _ .vmem, ⟨28, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_scratch0 : Ref sig .tc := ⟨.vmem, 27, rfl⟩
abbrev cc1_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v61 : BitVec 1 := Scalar.cmpi .eq arg0 c24_i32
  let v62 : BitVec 32 := Scalar.extui v61
  let c0_i32_33 : BitVec 32 := 0#32
  let v63 : BitVec 1 := Scalar.cmpi .ne v62 c0_i32_33
  v63

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  shapeCasts_S32_S1x32 : S32.ShapeCasts S1x32
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S4000x64_d1_w32 : S4000x64.Iotas .tc 32 [1]
  broadcasts_S4000x1_S4000x64 : S4000x1.Broadcasts S4000x64
  natLt_1_32 : 1 < 32
  broadcasts_S64x1_S64x128 : S64x1.Broadcasts S64x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x64_S4000x128_S64x128_0_0_1_1_n_n_wf : DotDims.WF S4000x64 S4000x128 S64x128 [0] [0] [1] [1] [] []
  dot_S4000x64_S4000x1_S64x1_0_0_1_1_n_n_wf : DotDims.WF S4000x64 S4000x1 S64x1 [0] [0] [1] [1] [] []
  dot_S64x128_S128x32_S64x32_1_0_0_1_n_n_wf : DotDims.WF S64x128 S128x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .i32 = 32 ∨ (Rect.block (s := S100000x1) S4000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x32.size a ≤ S128x32.size a
  hwx1_7 : ∀ i : grid1.Coords, EltTy.bits .f32 = 32 ∨ (Rect.block (s := S128x32) S128x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x1.size a ≤ S32x1.size a
  hwx1_9 : ∀ i : grid1.Coords, EltTy.bits .f32 = 32 ∨ (Rect.block (s := S32x1) S32x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x1.size a ≤ S64x1.size a
  hwx1_11 : ∀ i : grid1.Coords, EltTy.bits .f32 = 32 ∨ (Rect.block (s := S64x1) S64x1.size (cc1_transform_11 i) (hinb1_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S4000x128_S64x128_0_0_1_1_n_n : DotDims S4000x64 S4000x128 S64x128 where
  lhsContracting := [0]
  rhsContracting := [0]
  lhsNonContracting := [1]
  rhsNonContracting := [1]
  lhsBatch := []
  rhsBatch := []
  wf := dot_S4000x64_S4000x128_S64x128_0_0_1_1_n_n_wf
def dot_S4000x64_S4000x1_S64x1_0_0_1_1_n_n : DotDims S4000x64 S4000x1 S64x1 where
  lhsContracting := [0]
  rhsContracting := [0]
  lhsNonContracting := [1]
  rhsNonContracting := [1]
  lhsBatch := []
  rhsBatch := []
  wf := dot_S4000x64_S4000x1_S64x1_0_0_1_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_v25) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S32x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v45) S64x1.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond2 i == 1#1) | ⟨_ + 12, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S64x32 : Shape := ⟨2, ![64, 32]⟩
abbrev S1x32 : Shape := ⟨2, ![1, 32]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x32, .f32⟩
  | 11 => ⟨S32, .f32⟩
  | 12 => ⟨S32x1, .f32⟩
  | 13 => ⟨S1, .f32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x1, .f32⟩
  | 28 => ⟨S100000x128, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x128, .f32⟩
  | 39 => ⟨S_, .f32⟩
  | 40 => ⟨S100000x128, .f32⟩
  | 41 => ⟨S1700000x1, .i32⟩
  | 42 => ⟨S100000x128, .f32⟩
  | 43 => ⟨S100000x1, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x1, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S100000x1, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .f32⟩
  | 124 => ⟨S100000, .f32⟩
  | 125 => ⟨S_, .f32⟩
  | 126 => ⟨S64, .f32⟩
  | 127 => ⟨S100000x1, .i32⟩
  | _ => ⟨S100000x128, .f32⟩

abbrev hbmTy0_1 (i : Nat) : BufTy := match i % 128 with
  | 0 => ⟨S64, .f32⟩
  | 1 => ⟨S_, .f32⟩
  | 2 => ⟨S64x128, .f32⟩
  | 3 => ⟨S100000x1, .i32⟩
  | 4 => ⟨S64x128, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | 11 => ⟨S64x32, .f32⟩
  | 12 => ⟨S1x32, .f32⟩
  | 13 => ⟨S64x32, .f32⟩
  | 14 => ⟨S64x32, .f32⟩
  | 15 => ⟨S_, .f32⟩
  | 16 => ⟨S64x32, .f32⟩
  | 17 => ⟨S64x32, .f32⟩
  | 18 => ⟨S64x1, .f32⟩
  | 19 => ⟨S1x1, .f32⟩
  | 20 => ⟨S64x1, .f32⟩
  | 21 => ⟨S64x1, .f32⟩
  | 22 => ⟨S64x1, .f32⟩
  | 23 => ⟨S64x1, .f32⟩
  | 24 => ⟨S_, .f32⟩
  | 25 => ⟨S64x1, .f32⟩
  | 26 => ⟨S64x1, .f32⟩
  | 27 => ⟨S_, .f32⟩
  | 28 => ⟨S64x1, .f32⟩
  | 29 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call0_cst : Ref sig .tc := ⟨.hbm, 72, rfl⟩
abbrev main_call0_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_cst_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_17 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call1_cst : Ref sig .tc := ⟨.hbm, 120, rfl⟩
abbrev main_call1_v0 : Ref sig .tc := ⟨.hbm, 121, rfl⟩
abbrev main_v83 : Ref sig .tc := ⟨.hbm, 122, rfl⟩
abbrev main_cst_19 : Ref sig .tc := ⟨.hbm, 123, rfl⟩
abbrev main_v84 : Ref sig .tc := ⟨.hbm, 124, rfl⟩
abbrev main_cst_20 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_21 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_22 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_call2_cst : Ref sig .tc := ⟨.hbm, 143, rfl⟩
abbrev main_call2_v0 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_23 : Ref sig .tc := ⟨.hbm, 152, rfl⟩
abbrev main_v107 : Ref sig .tc := ⟨.hbm, 153, rfl⟩
abbrev main_v108 : Ref sig .tc := ⟨.hbm, 154, rfl⟩
abbrev main_cst_24 : Ref sig .tc := ⟨.hbm, 155, rfl⟩
abbrev main_v109 : Ref sig .tc := ⟨.hbm, 156, rfl⟩
abbrev main_v110 : Ref sig .tc := ⟨.hbm, 157, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x32_S64x32_1_0_0_1_n_n_wf : DotDims.WF S64x128 S128x32 S64x32 [1] [0] [0] [1] [] []
  dot_S64x32_S32x1_S64x1_1_0_0_1_n_n_wf : DotDims.WF S64x32 S32x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.KB.R0.lean ====
import proofs.«414551_j48034914238531_3_alg».proof.Proof.Gen.Kernel.Launch
import proofs.«414551_j48034914238531_3_alg».proof.Proof.Gen.Kernel.Skeleton
import proofs.«414551_j48034914238531_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.SL Idealize.SL.RA
open Idealize.ShloMosaic.Pipeline (Dat)
open Cert.Kernel Cert.Kernel.Gen

variable {F : FTy → Type} [FloatOps F]

variable (V : (c : Dev nD) → (b : Ref sig .tc) → Buf (Elt F) ((c : Thread nD τ).loc b))

/-- The block of window `w` at point `t`, read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S4000x128 := Rect.unit (s := S4000x128) ![0, 0] S4000x128.size inb_S4000x128_S4000x128_0_0
abbrev rN0 : Rect S4000x1 := Rect.unit (s := S4000x1) ![0, 0] S4000x1.size inb_S4000x1_S4000x1_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output block as a function of the six input blocks: the single store's payload. -/
def out0_6 (x0 : Vec F S4000x128 .f32) (x1 : Vec F S4000x128 .f32) (x2 : Vec F S4000x1 .f32) (x3 : Vec F S128x128 .f32) (x4 : Vec F S128x128 .f32) (x5 : Vec F S1x128 .f32) : Vec F S4000x128 .bf16 :=
  View.canon [⟨rA0, k0_pay1 (k0_pay2 (View.ld x2 rN0) (View.ld x0 rA0) (View.ld x1 rA0) (View.ld x3 rW0) (View.ld x4 rW0) (View.ld x5 rB0))⟩]

theorem cover0_6 (p0 : Vec F S4000x128 .bf16) (y : S4000x128.Idx) :
    ∃ pc ∈ ([⟨rA0, p0⟩] : List (View.Piece (Elt F) S4000x128 .bf16)), y ∈ pc.1.set :=
  View.cover_of_tiled [⟨rA0, p0⟩] S4000x128.size (by rfl) y

/-- Every input block stays as found and the output block is `out0_6` of them; nothing is carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input block is left as found, so the contents handed in at a point are that point's block. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

end Cert.Kernel.Hand

end
-- ==== Proof.KB.R0Body.lean ====
import proofs.«414551_j48034914238531_3_alg».proof.Proof.KB.R0

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Run on whole buffers holding `x0 … x5`, the body leaves them as they were and the output buffer at `out0_6` of them:
    its one store covers the block. -/
theorem sound_kernel0 (c : Dev nD) (E : Set ℕ) (i : grid0.Coords) {arg1 arg2 : Memref sig .tc .vmem S4000x128 .f32} {arg3 : Memref sig .tc .vmem S4000x1 .f32}
    {arg4 arg5 : Memref sig .tc .vmem S128x128 .f32} {arg6 : Memref sig .tc .vmem S1x128 .f32} {arg7 : Memref sig .tc .vmem S4000x128 .bf16}
    (harg1 : arg1.IsWhole) (harg2 : arg2.IsWhole) (harg3 : arg3.IsWhole) (harg4 : arg4.IsWhole) (harg5 : arg5.IsWhole) (harg6 : arg6.IsWhole) (harg7 : arg7.IsWhole)
    (x0 x1 : Vec F S4000x128 .f32) (x2 : Vec F S4000x1 .f32) (x3 x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

def bodyPre0 (c : Dev nD) (t : Fin cfg0.N) : sProp 𝕄 :=
  let P (w : Fin cfg0.W) : sProp 𝕄 := iprop(∃ d, owns (c : Thread nD τ) ((cfg0.win w).stage (cfg0.slots t w)) fullShare ((dat0 V c).before w t d))
  iprop((dat0 V c).Φ t.castSucc ∗ (dat0 V c).owesAt () t.castSucc ∗ P 0 ∗ P 1 ∗ P 2 ∗ P 3 ∗ P 4 ∗ P 5 ∗ P 6)

def bodyPost0 (c : Dev nD) (t : Fin cfg0.N) : sProp 𝕄 :=
  iprop((dat0 V c).Φ t.castSucc ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (iblk0 V c 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ (iblk0 V c 0 t) (iblk0 V c 1 t) (iblk0 V c 2 t) (iblk0 V c 3 t) (iblk0 V c 4 t) (iblk0 V c 5 t) _)
  iframe H0 H1 H2 H3 H4 H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
import proofs.«414551_j48034914238531_3_alg».proof.Proof.Gen.Kernel.Launch
import proofs.«414551_j48034914238531_3_alg».proof.Proof.Gen.Kernel.Skeleton
import proofs.«414551_j48034914238531_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

theorem liveAt1 : ∀ (w : Fin cfg1.W) (t : Fin cfg1.N), w ≠ 11 → cfg1.idle w (grid1.coords t) = false := by decide +kernel

theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel

theorem liveAt1_11 : ∀ t : Fin cfg1.N, cond1_1 (grid1.coords t) → cfg1.idle 11 (grid1.coords t) = false := by decide +kernel

abbrev ms1_0 (t : Fin cfg1.N) : Memref sig .tc .vmem S4000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4000x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S32x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S64x1 .f32 := win1_11.stage (cfg1.slots t 11)
abbrev hs1_11 (t : Fin cfg1.N) : (ms1_11 t).IsWhole := hstage1_11 ((cfg1.slots t 11).cast nbuf1_11)

abbrev scM1_0 : Memref sig .tc .vmem S64x128 .f32 := Memref.whole cc1_scratch0
abbrev scM1_1 : Memref sig .tc .vmem S64x1 .f32 := Memref.whole cc1_scratch1
abbrev VS1_0 : View sig .tc .vmem S64x128 .f32 := scM1_0.view
abbrev VS1_1 : View sig .tc .vmem S64x1 .f32 := scM1_1.view

abbrev VO1_11 : View sig .tc .vmem S64x1 .f32 := (Memref.whole cc1_stg11_0 : Memref sig .tc .vmem S64x1 .f32).view

-- The first call's scoped buffers, each at some contents, beside `X`.
abbrev withOthers1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ X)

-- What a region hands its body beside the windows, with the two accumulators owned at some contents.
theorem PhiA1 (c : Dev nD) :
    (Pipeline.ΦA spec1 c : sProp 𝕄) = iprop(withOthers1 c iprop((∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

-- A whole buffer owned at `X` is its cells at the one contents that reads `X`.
theorem owns_unread {S : Shape} {φ : EltTy} (c : Dev nD) {M : Memref sig .tc .vmem S φ} (h : M.IsWhole) (X : Vec F S φ) :
    (owns (c : Thread nD τ) M fullShare X : sProp 𝕄) = (M.view.loc (c : Thread nD τ) ↦[M.view.set]{fullShare} h.unread X) := by
  have h₁ : (owns (c : Thread nD τ) M fullShare X : sProp 𝕄) ⊢ (M.view.loc (c : Thread nD τ) ↦[M.view.set]{fullShare} h.unread X) := by
    unfold owns; iintro ⟨%f, %hf, H⟩; obtain rfl := h.eq_unread hf; iexact H
  have h₂ : (M.view.loc (c : Thread nD τ) ↦[M.view.set]{fullShare} h.unread X : sProp 𝕄) ⊢ owns (c : Thread nD τ) M fullShare X := by
    unfold owns; iintro H; iexists _; isplitr; · ipureintro; exact h.read_unread _
    iexact H
  exact BI.equiv_iff.mp ⟨h₁, h₂⟩

end Cert.Kernel.Hand

end
-- ==== Proof.KB.R1A.lean ====
import proofs.«414551_j48034914238531_3_alg».proof.Proof.KB.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x128 .f32) (harg13 : arg13.IsWhole) (arg14 : Memref sig .tc .vmem S64x1 .f32) (harg14 : arg14.IsWhole) (hc0 : cond1_0 i) (hc1 : ¬cond1_1 i)
    (x0 : Vec F S4000x128 .f32) (x1 : Vec F S4000x128 .f32) (x2 : Vec F S4000x1 .f32) (x3 : Vec F S4000x1 .i32) (x4 : Vec F S128x128 .f32) (x5 : Vec F S128x128 .f32) (x6 : Vec F S1x128 .f32) (x7 : Vec F S128x32 .f32) (x8 : Vec F S1x32 .f32) (x9 : Vec F S32x1 .f32) (x10 : Vec F S1x1 .f32) :
    Σ' (LS0 : List (View.Piece (Elt F) S64x128 .f32)), { LS1 : List (View.Piece (Elt F) S64x1 .f32) //
      ∀ (xi11 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__layer2_pool_decode_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi11 E K => ?run⟩
  case run =>
    simp only [cc1__layer2_pool_decode_kernel_eq_skeleton]; unfold cc1__layer2_pool_decode_kernel_skel
    simp only [k1_part1_eq_skeleton]; unfold k1_part1_skel
    rw [owns_unread c harg1, owns_unread c harg2, owns_unread c harg3, owns_unread c harg4, owns_unread c harg5, owns_unread c harg6, owns_unread c harg7, owns_unread c harg8, owns_unread c harg9, owns_unread c harg10, owns_unread c harg11, owns_unread c harg12]
    unfold owns
    iintro ⟨H0, H1, H2, H3, H4, H5, H6, H7, H8, H9, H10, H11, ⟨%ds0, %fs0, -, HS0⟩, ⟨%ds1, %fs1, -, HS1⟩, Hk⟩
    sl_exec (disch := first | exact hc0 | exact hc1)
    sl_step
    iapply Hk
    iframe H0 H1 H2 H3 H4 H5 H6 H7 H8 H9 H10 H11
    isplitl [HS0]; · iexists _; iexact HS0
    iexists _; iexact HS1

end Cert.Kernel.Hand

end
-- ==== Proof.KB.R1B.lean ====
import proofs.«414551_j48034914238531_3_alg».proof.Proof.KB.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x128 .f32) (harg13 : arg13.IsWhole) (arg14 : Memref sig .tc .vmem S64x1 .f32) (harg14 : arg14.IsWhole) (hc0 : ¬cond1_0 i) (hc1 : ¬cond1_1 i)
    (x0 : Vec F S4000x128 .f32) (x1 : Vec F S4000x128 .f32) (x2 : Vec F S4000x1 .f32) (x3 : Vec F S4000x1 .i32) (x4 : Vec F S128x128 .f32) (x5 : Vec F S128x128 .f32) (x6 : Vec F S1x128 .f32) (x7 : Vec F S128x32 .f32) (x8 : Vec F S1x32 .f32) (x9 : Vec F S32x1 .f32) (x10 : Vec F S1x1 .f32) (xs0 : Vec F S64x128 .f32) (xs1 : Vec F S64x1 .f32) :
    Σ' (LS0 : List (View.Piece (Elt F) S64x128 .f32)), { LS1 : List (View.Piece (Elt F) S64x1 .f32) //
      ∀ (xi11 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__layer2_pool_decode_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi11 E K => ?run⟩
  case run =>
    simp only [cc1__layer2_pool_decode_kernel_eq_skeleton]; unfold cc1__layer2_pool_decode_kernel_skel
    simp only [k1_part1_eq_skeleton]; unfold k1_part1_skel
    rw [owns_unread c harg1, owns_unread c harg2, owns_unread c harg3, owns_unread c harg4, owns_unread c harg5, owns_unread c harg6, owns_unread c harg7, owns_unread c harg8, owns_unread c harg9, owns_unread c harg10, owns_unread c harg11, owns_unread c harg12, owns_unread c harg13, owns_unread c harg14]
    iintro ⟨H0, H1, H2, H3, H4, H5, H6, H7, H8, H9, H10, H11, HS0, HS1, Hk⟩
    sl_exec (disch := first | exact hc0 | exact hc1)
    sl_step
    iapply Hk
    iframe H0 H1 H2 H3 H4 H5 H6 H7 H8 H9 H10 H11
    isplitl [HS0]; · iexists _; iexact HS0
    iexists _; iexact HS1

end Cert.Kernel.Hand

end
-- ==== Proof.KB.R1C.lean ====
import proofs.«414551_j48034914238531_3_alg».proof.Proof.KB.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x128 .f32) (harg13 : arg13.IsWhole) (arg14 : Memref sig .tc .vmem S64x1 .f32) (harg14 : arg14.IsWhole) (hc0 : ¬cond1_0 i) (hc1 : cond1_1 i)
    (x0 : Vec F S4000x128 .f32) (x1 : Vec F S4000x128 .f32) (x2 : Vec F S4000x1 .f32) (x3 : Vec F S4000x1 .i32) (x4 : Vec F S128x128 .f32) (x5 : Vec F S128x128 .f32) (x6 : Vec F S1x128 .f32) (x7 : Vec F S128x32 .f32) (x8 : Vec F S1x32 .f32) (x9 : Vec F S32x1 .f32) (x10 : Vec F S1x1 .f32) (xs0 : Vec F S64x128 .f32) (xs1 : Vec F S64x1 .f32) :
    Σ' (L11 : List (View.Piece (Elt F) S64x1 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__layer2_pool_decode_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__layer2_pool_decode_kernel_eq_skeleton]; unfold cc1__layer2_pool_decode_kernel_skel
    simp only [k1_part1_eq_skeleton]; unfold k1_part1_skel
    rw [owns_unread c harg1, owns_unread c harg2, owns_unread c harg3, owns_unread c harg4, owns_unread c harg5, owns_unread c harg6, owns_unread c harg7, owns_unread c harg8, owns_unread c harg9, owns_unread c harg10, owns_unread c harg11, owns_unread c harg13, owns_unread c harg14]
    unfold owns
    iintro ⟨H0, H1, H2, H3, H4, H5, H6, H7, H8, H9, H10, ⟨%d11, %f11, -, H11⟩, HS0, HS1, Hk⟩
    sl_exec (disch := first | exact hc0 | exact hc1)
    sl_step
    iapply Hk
    iframe H0 H1 H2 H3 H4 H5 H6 H7 H8 H9 H10
    isplitl [H11]; · iexists _; iexact H11
    isplitl [HS0]; · iexists _; iexact HS0
    iexists _; iexact HS1

end Cert.Kernel.Hand

end
-- ==== Proof.KB.R1Dat.lean ====
import proofs.«414551_j48034914238531_3_alg».proof.Proof.KB.R1A
import proofs.«414551_j48034914238531_3_alg».proof.Proof.KB.R1B
import proofs.«414551_j48034914238531_3_alg».proof.Proof.KB.R1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem N1_eq : cfg1.N = 25 := N_1
theorem is_first (t : Fin cfg1.N) (h : t.val = 0) : cond1_0 (grid1.coords t) := (hcond1_0 t).mpr (by rw [h])
theorem not_first (t : Fin cfg1.N) (h : t.val ≠ 0) : ¬cond1_0 (grid1.coords t) := fun hc => by
  have h1 := (hcond1_0 t).mp hc; have hN : t.val < 25 := lt_of_lt_of_eq t.isLt N1_eq; omega
theorem is_last (t : Fin cfg1.N) (h : t.val = 24) : cond1_1 (grid1.coords t) := (hcond1_1 t).mpr (by rw [h])
theorem not_last (t : Fin cfg1.N) (h : t.val ≠ 24) : ¬cond1_1 (grid1.coords t) := fun hc => by
  have h1 := (hcond1_1 t).mp hc; have hN : t.val < 25 := lt_of_lt_of_eq t.isLt N1_eq; omega

abbrev bA (c : Dev nD) (t : Fin cfg1.N) : Vec F S4000x128 .f32 := iblk1 V c 0 t
abbrev bX (c : Dev nD) (t : Fin cfg1.N) : Vec F S4000x128 .f32 := iblk1 V c 1 t
abbrev bN (c : Dev nD) (t : Fin cfg1.N) : Vec F S4000x1 .f32 := iblk1 V c 2 t
abbrev bG (c : Dev nD) (t : Fin cfg1.N) : Vec F S4000x1 .i32 := iblk1 V c 3 t
abbrev bW1 (c : Dev nD) (t : Fin cfg1.N) : Vec F S128x128 .f32 := iblk1 V c 4 t
abbrev bW2 (c : Dev nD) (t : Fin cfg1.N) : Vec F S128x128 .f32 := iblk1 V c 5 t
abbrev bB (c : Dev nD) (t : Fin cfg1.N) : Vec F S1x128 .f32 := iblk1 V c 6 t
abbrev bD1 (c : Dev nD) (t : Fin cfg1.N) : Vec F S128x32 .f32 := iblk1 V c 7 t
abbrev bE1 (c : Dev nD) (t : Fin cfg1.N) : Vec F S1x32 .f32 := iblk1 V c 8 t
abbrev bD2 (c : Dev nD) (t : Fin cfg1.N) : Vec F S32x1 .f32 := iblk1 V c 9 t
abbrev bE2 (c : Dev nD) (t : Fin cfg1.N) : Vec F S1x1 .f32 := iblk1 V c 10 t

abbrev Acc (F : FTy → Type) [FloatOps F] := Vec F S64x128 .f32 × Vec F S64x1 .f32

abbrev runA (c : Dev nD) (t : Fin cfg1.N) (h0 : t.val = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (is_first t h0) (not_last t (by omega)) (bA V c t) (bX V c t) (bN V c t) (bG V c t) (bW1 V c t) (bW2 V c t) (bB V c t) (bD1 V c t) (bE1 V c t) (bD2 V c t) (bE2 V c t)
abbrev runB (c : Dev nD) (t : Fin cfg1.N) (h0 : t.val ≠ 0) (h1 : t.val ≠ 24) (s : Acc F) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (not_first t h0) (not_last t h1) (bA V c t) (bX V c t) (bN V c t) (bG V c t) (bW1 V c t) (bW2 V c t) (bB V c t) (bD1 V c t) (bE1 V c t) (bD2 V c t) (bE2 V c t) s.1 s.2
abbrev runC (c : Dev nD) (t : Fin cfg1.N) (h0 : t.val ≠ 0) (h1 : t.val = 24) (s : Acc F) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (not_first t h0) (is_last t h1) (bA V c t) (bX V c t) (bN V c t) (bG V c t) (bW1 V c t) (bW2 V c t) (bB V c t) (bD1 V c t) (bE1 V c t) (bD2 V c t) (bE2 V c t) s.1 s.2

-- What covering stores `L` leave in a buffer depends on neither the view nor the prior contents.
abbrev rd {S : Shape} {φ : EltTy} (v : View sig .tc .vmem S φ) (L : List (View.Piece (Elt F) S φ)) : Vec F S φ :=
  v.read (Elt F) (v.writes (Elt F) v.junk L)

theorem owns_rd {S : Shape} {φ : EltTy} (c : Dev nD) (M : Memref sig .tc .vmem S φ) (v : View sig .tc .vmem S φ) (f) (L : List (View.Piece (Elt F) S φ))
    (h : ∀ y, ∃ pc ∈ L, y ∈ pc.1.set) :
    (M.view.loc (c : Thread nD τ) ↦[M.view.set]{fullShare} M.view.writes (Elt F) f L : sProp 𝕄) ⊢ owns (c : Thread nD τ) M fullShare (rd v L) := by
  iintro H; unfold owns; iexists _; isplitr
  swap; · iexact H
  ipureintro; exact View.read_writes_of_cover _ _ _ _ _ h

variable (c : Dev nD) (t : Fin cfg1.N)

theorem coverA0 (h0) (y) : ∃ pc ∈ (runA V c t h0).1, y ∈ pc.1.set := View.cover_of_tiledL _ S64x128.size (by sl_kernel_rfl) y
theorem coverA1 (h0) (y) : ∃ pc ∈ (runA V c t h0).2.1, y ∈ pc.1.set := View.cover_of_tiledL _ S64x1.size (by sl_kernel_rfl) y
theorem coverB0 (h0 h1 s) (y) : ∃ pc ∈ (runB V c t h0 h1 s).1, y ∈ pc.1.set := View.cover_of_tiledL _ S64x128.size (by sl_kernel_rfl) y
theorem coverB1 (h0 h1 s) (y) : ∃ pc ∈ (runB V c t h0 h1 s).2.1, y ∈ pc.1.set := View.cover_of_tiledL _ S64x1.size (by sl_kernel_rfl) y
theorem coverCo (h0 h1 s) (y) : ∃ pc ∈ (runC V c t h0 h1 s).1, y ∈ pc.1.set := View.cover_of_tiledL _ S64x1.size (by sl_kernel_rfl) y
theorem coverC0 (h0 h1 s) (y) : ∃ pc ∈ (runC V c t h0 h1 s).2.1, y ∈ pc.1.set := View.cover_of_tiledL _ S64x128.size (by sl_kernel_rfl) y
theorem coverC1 (h0 h1 s) (y) : ∃ pc ∈ (runC V c t h0 h1 s).2.2.1, y ∈ pc.1.set := View.cover_of_tiledL _ S64x1.size (by sl_kernel_rfl) y

-- After the body at position `n`: the output block (stored at the last point only), then the sums and the counts.
def outsAt1 (c : Dev nD) : (n : ℕ) → n < cfg1.N → Vec F S64x1 .f32 × Acc F
  | 0, hn => (VO1_11.read (Elt F) VO1_11.junk, rd VS1_0 (runA V c ⟨0, hn⟩ rfl).1, rd VS1_1 (runA V c ⟨0, hn⟩ rfl).2.1)
  | n + 1, hn =>
    if h1 : n + 1 = 24 then
      (rd VO1_11 (runC V c ⟨n + 1, hn⟩ n.succ_ne_zero h1 (outsAt1 c n (Nat.lt_of_succ_lt hn)).2).1,
       rd VS1_0 (runC V c ⟨n + 1, hn⟩ n.succ_ne_zero h1 (outsAt1 c n (Nat.lt_of_succ_lt hn)).2).2.1,
       rd VS1_1 (runC V c ⟨n + 1, hn⟩ n.succ_ne_zero h1 (outsAt1 c n (Nat.lt_of_succ_lt hn)).2).2.2.1)
    else
      (VO1_11.read (Elt F) VO1_11.junk,
       rd VS1_0 (runB V c ⟨n + 1, hn⟩ n.succ_ne_zero h1 (outsAt1 c n (Nat.lt_of_succ_lt hn)).2).1,
       rd VS1_1 (runB V c ⟨n + 1, hn⟩ n.succ_ne_zero h1 (outsAt1 c n (Nat.lt_of_succ_lt hn)).2).2.1)

abbrev prev1 : Acc F := (outsAt1 V c (t.val - 1) (Nat.lt_of_le_of_lt (Nat.sub_le _ _) t.isLt)).2

theorem outsAt1_A (h0 : t.val = 0) :
    outsAt1 V c t.val t.isLt = (VO1_11.read (Elt F) VO1_11.junk, rd VS1_0 (runA V c t h0).1, rd VS1_1 (runA V c t h0).2.1) := by
  obtain ⟨n, hn⟩ := t
  cases n with
  | zero => exact rfl
  | succ n => exact absurd h0 (Nat.succ_ne_zero n)

theorem outsAt1_B (h0 : t.val ≠ 0) (h1 : t.val ≠ 24) :
    outsAt1 V c t.val t.isLt = (VO1_11.read (Elt F) VO1_11.junk, rd VS1_0 (runB V c t h0 h1 (prev1 V c t)).1, rd VS1_1 (runB V c t h0 h1 (prev1 V c t)).2.1) := by
  obtain ⟨n, hn⟩ := t
  cases n with
  | zero => exact absurd rfl h0
  | succ n => exact (dif_neg h1).trans rfl

theorem outsAt1_C (h0 : t.val ≠ 0) (h1 : t.val = 24) :
    outsAt1 V c t.val t.isLt = (rd VO1_11 (runC V c t h0 h1 (prev1 V c t)).1, rd VS1_0 (runC V c t h0 h1 (prev1 V c t)).2.1, rd VS1_1 (runC V c t h0 h1 (prev1 V c t)).2.2.1) := by
  obtain ⟨n, hn⟩ := t
  cases n with
  | zero => exact absurd rfl h0
  | succ n => exact (dif_pos h1).trans rfl

-- Between points each accumulator is owned at what the point before left in it.
def PhiS (c : Dev nD) : (n : ℕ) → n ≤ cfg1.N → sProp 𝕄
  | 0, _ => Pipeline.ΦA spec1 c
  | n + 1, hn => iprop(withOthers1 c iprop(owns (c : Thread nD τ) scM1_0 fullShare (outsAt1 V c n hn).2.1 ∗ owns (c : Thread nD τ) scM1_1 fullShare (outsAt1 V c n hn).2.2) ∗ (∃ r, prngReg c r))

theorem PhiS_pos (n : ℕ) (h : n ≤ cfg1.N) (hz : n ≠ 0) :
    PhiS V c n h = iprop(withOthers1 c iprop(owns (c : Thread nD τ) scM1_0 fullShare (outsAt1 V c (n - 1) (by omega)).2.1 ∗ owns (c : Thread nD τ) scM1_1 fullShare (outsAt1 V c (n - 1) (by omega)).2.2) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).1
  Φ t := PhiS V c t.val (Nat.le_of_lt_succ t.isLt)
  q _ := fullShare
  owed _ := 0

theorem A_eq1 (w : Fin cfg1.W) : (dat1 V c).A w = V c (Pipeline.arrRef spec1 w) := rfl
theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl
theorem before1_2 (d) : (dat1 V c).before 2 t d = iblk1 V c 2 t :=
  ((dat1 V c).before_in_eq_fetched 2 rfl (fun _ => rfl) (fun _ _ _ => rfl) (fun _ => rfl) t d).trans rfl
theorem before1_3 (d) : (dat1 V c).before 3 t d = iblk1 V c 3 t :=
  ((dat1 V c).before_in_eq_fetched 3 rfl (fun _ => rfl) (fun _ _ _ => rfl) (fun _ => rfl) t d).trans rfl
theorem before1_4 (d) : (dat1 V c).before 4 t d = iblk1 V c 4 t :=
  ((dat1 V c).before_in_eq_fetched 4 rfl (fun _ => rfl) (fun _ _ _ => rfl) (fun _ => rfl) t d).trans rfl
theorem before1_5 (d) : (dat1 V c).before 5 t d = iblk1 V c 5 t :=
  ((dat1 V c).before_in_eq_fetched 5 rfl (fun _ => rfl) (fun _ _ _ => rfl) (fun _ => rfl) t d).trans rfl
theorem before1_6 (d) : (dat1 V c).before 6 t d = iblk1 V c 6 t :=
  ((dat1 V c).before_in_eq_fetched 6 rfl (fun _ => rfl) (fun _ _ _ => rfl) (fun _ => rfl) t d).trans rfl
theorem before1_7 (d) : (dat1 V c).before 7 t d = iblk1 V c 7 t :=
  ((dat1 V c).before_in_eq_fetched 7 rfl (fun _ => rfl) (fun _ _ _ => rfl) (fun _ => rfl) t d).trans rfl
theorem before1_8 (d) : (dat1 V c).before 8 t d = iblk1 V c 8 t :=
  ((dat1 V c).before_in_eq_fetched 8 rfl (fun _ => rfl) (fun _ _ _ => rfl) (fun _ => rfl) t d).trans rfl
theorem before1_9 (d) : (dat1 V c).before 9 t d = iblk1 V c 9 t :=
  ((dat1 V c).before_in_eq_fetched 9 rfl (fun _ => rfl) (fun _ _ _ => rfl) (fun _ => rfl) t d).trans rfl
theorem before1_10 (d) : (dat1 V c).before 10 t d = iblk1 V c 10 t :=
  ((dat1 V c).before_in_eq_fetched 10 rfl (fun _ => rfl) (fun _ _ _ => rfl) (fun _ => rfl) t d).trans rfl
theorem leaves1_0 : (dat1 V c).leavesExact 0 t = owns (c : Thread nD τ) (ms1_0 t) fullShare (iblk1 V c 0 t) := by
  unfold Dat.leavesExact; rw [liveAt1 0 t (by decide)]; rfl
theorem leaves1_1 : (dat1 V c).leavesExact 1 t = owns (c : Thread nD τ) (ms1_1 t) fullShare (iblk1 V c 1 t) := by
  unfold Dat.leavesExact; rw [liveAt1 1 t (by decide)]; rfl
theorem leaves1_2 : (dat1 V c).leavesExact 2 t = owns (c : Thread nD τ) (ms1_2 t) fullShare (iblk1 V c 2 t) := by
  unfold Dat.leavesExact; rw [liveAt1 2 t (by decide)]; rfl
theorem leaves1_3 : (dat1 V c).leavesExact 3 t = owns (c : Thread nD τ) (ms1_3 t) fullShare (iblk1 V c 3 t) := by
  unfold Dat.leavesExact; rw [liveAt1 3 t (by decide)]; rfl
theorem leaves1_4 : (dat1 V c).leavesExact 4 t = owns (c : Thread nD τ) (ms1_4 t) fullShare (iblk1 V c 4 t) := by
  unfold Dat.leavesExact; rw [liveAt1 4 t (by decide)]; rfl
theorem leaves1_5 : (dat1 V c).leavesExact 5 t = owns (c : Thread nD τ) (ms1_5 t) fullShare (iblk1 V c 5 t) := by
  unfold Dat.leavesExact; rw [liveAt1 5 t (by decide)]; rfl
theorem leaves1_6 : (dat1 V c).leavesExact 6 t = owns (c : Thread nD τ) (ms1_6 t) fullShare (iblk1 V c 6 t) := by
  unfold Dat.leavesExact; rw [liveAt1 6 t (by decide)]; rfl
theorem leaves1_7 : (dat1 V c).leavesExact 7 t = owns (c : Thread nD τ) (ms1_7 t) fullShare (iblk1 V c 7 t) := by
  unfold Dat.leavesExact; rw [liveAt1 7 t (by decide)]; rfl
theorem leaves1_8 : (dat1 V c).leavesExact 8 t = owns (c : Thread nD τ) (ms1_8 t) fullShare (iblk1 V c 8 t) := by
  unfold Dat.leavesExact; rw [liveAt1 8 t (by decide)]; rfl
theorem leaves1_9 : (dat1 V c).leavesExact 9 t = owns (c : Thread nD τ) (ms1_9 t) fullShare (iblk1 V c 9 t) := by
  unfold Dat.leavesExact; rw [liveAt1 9 t (by decide)]; rfl
theorem leaves1_10 : (dat1 V c).leavesExact 10 t = owns (c : Thread nD τ) (ms1_10 t) fullShare (iblk1 V c 10 t) := by
  unfold Dat.leavesExact; rw [liveAt1 10 t (by decide)]; rfl

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
-- The body at any point, by its case: the invariant hands it the accumulators and takes them back at this point's contents.
theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, leaves1_0, leaves1_1, leaves1_2, leaves1_3, leaves1_4, leaves1_5, leaves1_6, leaves1_7, leaves1_8, leaves1_9, leaves1_10]
  rw [show (dat1 V c).owesAt () t.succ = (dat1 V c).owesAt () t.castSucc from rfl,
    show (dat1 V c).Φ t.succ = PhiS V c (t.val + 1) t.isLt from rfl, PhiS_pos V c _ _ t.val.succ_ne_zero,
    show (dat1 V c).Φ t.castSucc = PhiS V c t.val (Nat.le_of_lt t.isLt) from rfl]
  have hN : t.val < 25 := lt_of_lt_of_eq t.isLt N1_eq
  by_cases h0 : t.val = 0
  · have h1 : t.val ≠ 24 := by omega
    rw [Dat.leavesExact_idle (dat1 V c) 11 t (idleAt1_11 t (not_last t h1)) (noFlush1_11 t (not_last t h1)),
      show outsAt1 V c (t.val + 1 - 1) _ = _ from outsAt1_A V c t h0,
      show PhiS V c t.val _ = Pipeline.ΦA spec1 c by obtain ⟨_, _⟩ := t; subst h0; rfl, PhiA1 c]
    unfold withOthers1
    iintro ⟨⟨⟨Ho1, Ho2, Ho3, Ho4, Ho5, Ho6, Ho7, Ho8, Ho9, Ho10, Ho11, HS0, HS1⟩, Hg⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA V c t h0).2.2 _ Set.univ _)
    iframe H0 H1 H2 H3 H4 H5 H6 H7 H8 H9 H10 H11 HS0 HS1
    iintro ⟨H0, H1, H2, H3, H4, H5, H6, H7, H8, H9, H10, H11, ⟨%es0, HS0⟩, ⟨%es1, HS1⟩⟩
    ihave HS0 := (owns_rd c scM1_0 VS1_0 es0 _ (coverA0 V c t h0)) $$ HS0
    ihave HS1 := (owns_rd c scM1_1 VS1_1 es1 _ (coverA1 V c t h0)) $$ HS1
    iframe Ho1 Ho2 Ho3 Ho4 Ho5 Ho6 Ho7 Ho8 Ho9 Ho10 Ho11 HS0 HS1 Hg Hw H0 H1 H2 H3 H4 H5 H6 H7 H8 H9 H10
    iexists _; iexact H11
  · rw [PhiS_pos V c _ _ h0]
    unfold withOthers1
    by_cases h1 : t.val = 24
    · rw [show (dat1 V c).leavesExact 11 t = owns (c : Thread nD τ) (ms1_11 t) fullShare (outsAt1 V c t.val t.isLt).1 from by
          unfold Dat.leavesExact; rw [liveAt1_11 t (is_last t h1)]; rfl,
        show outsAt1 V c (t.val + 1 - 1) _ = _ from outsAt1_C V c t h0 h1, outsAt1_C V c t h0 h1]
      iintro ⟨⟨⟨Ho1, Ho2, Ho3, Ho4, Ho5, Ho6, Ho7, Ho8, Ho9, Ho10, Ho11, HS0, HS1⟩, Hg⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC V c t h0 h1 (prev1 V c t)).2.2.2 Set.univ _)
      iframe H0 H1 H2 H3 H4 H5 H6 H7 H8 H9 H10 HS0 HS1
      isplitl [H11]; · iexists _; iexact H11
      iintro ⟨H0, H1, H2, H3, H4, H5, H6, H7, H8, H9, H10, ⟨%e11, H11⟩, ⟨%es0, HS0⟩, ⟨%es1, HS1⟩⟩
      ihave H11 := (owns_rd c (ms1_11 t) VO1_11 e11 _ (coverCo V c t h0 h1 _)) $$ H11
      ihave HS0 := (owns_rd c scM1_0 VS1_0 es0 _ (coverC0 V c t h0 h1 _)) $$ HS0
      ihave HS1 := (owns_rd c scM1_1 VS1_1 es1 _ (coverC1 V c t h0 h1 _)) $$ HS1
      iframe
    · rw [Dat.leavesExact_idle (dat1 V c) 11 t (idleAt1_11 t (not_last t h1)) (noFlush1_11 t (not_last t h1)),
        show outsAt1 V c (t.val + 1 - 1) _ = _ from outsAt1_B V c t h0 h1]
      iintro ⟨⟨⟨Ho1, Ho2, Ho3, Ho4, Ho5, Ho6, Ho7, Ho8, Ho9, Ho10, Ho11, HS0, HS1⟩, Hg⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB V c t h0 h1 (prev1 V c t)).2.2 _ Set.univ _)
      iframe H0 H1 H2 H3 H4 H5 H6 H7 H8 H9 H10 H11 HS0 HS1
      iintro ⟨H0, H1, H2, H3, H4, H5, H6, H7, H8, H9, H10, H11, ⟨%es0, HS0⟩, ⟨%es1, HS1⟩⟩
      ihave HS0 := (owns_rd c scM1_0 VS1_0 es0 _ (coverB0 V c t h0 h1 _)) $$ HS0
      ihave HS1 := (owns_rd c scM1_1 VS1_1 es1 _ (coverB1 V c t h0 h1 _)) $$ HS1
      iframe Ho1 Ho2 Ho3 Ho4 Ho5 Ho6 Ho7 Ho8 Ho9 Ho10 Ho11 HS0 HS1 Hg Hw H0 H1 H2 H3 H4 H5 H6 H7 H8 H9 H10
      iexists _; iexact H11

theorem body_obligation1 (c : Dev nD) : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 25 := N1_eq; omega), PhiA1 c]
  unfold withOthers1
  iintro ⟨⟨Ho1, Ho2, Ho3, Ho4, Ho5, Ho6, Ho7, Ho8, Ho9, Ho10, Ho11, HS0, HS1⟩, Hg⟩
  iframe Ho1 Ho2 Ho3 Ho4 Ho5 Ho6 Ho7 Ho8 Ho9 Ho10 Ho11 Hg
  isplitl [HS0] <;> iexists _ <;> iassumption

end Cert.Kernel.Hand

end
-- ==== Proof.KB.Run.lean ====
import proofs.«414551_j48034914238531_3_alg».proof.Proof.KB.R0Body
import proofs.«414551_j48034914238531_3_alg».proof.Proof.KB.R1Dat
import proofs.«414551_j48034914238531_3_alg».proof.Proof.Gen.Kernel.Regions

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Wt0 : Dev nD → Valuation τ sig (Elt F) := fun c b => (s₀ m ρ).mem ((c : Dev nD), b)
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb

abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb

theorem Wt1_of (c : Dev nD) (r : Ref sig .tc) (h : r ∉ hostOps0_W) : Wt1 m ρ c (Proc.devRef .tc r) = Wt0 m ρ c (Proc.devRef .tc r) :=
  StableHlo.after_of_writes_sub hostOps0 _ hostOps0_writes h
theorem Wt3_of (c : Dev nD) (r : Ref sig .tc) (h : r ∉ hostOps1_W) : Wt3 m ρ c (Proc.devRef .tc r) = Wt2 m ρ c (Proc.devRef .tc r) :=
  StableHlo.after_of_writes_sub hostOps1 _ hostOps1_writes h
theorem Wt2_in (c : Dev nD) (w : Fin cfg0.W) (hw : (cfg0.win w).isOut = false) :
    Wt2 m ρ c (Proc.devRef .tc (Pipeline.arrRef spec0 w)) = Wt1 m ρ c (Proc.devRef .tc (Pipeline.arrRef spec0 w)) :=
  (Wt2_arr m ρ c w).trans ((dat0 (Vt1 m ρ) c).arrAt_in w hw _)
theorem Wt4_in (c : Dev nD) (w : Fin cfg1.W) (hw : (cfg1.win w).isOut = false) :
    Wt4 m ρ c (Proc.devRef .tc (Pipeline.arrRef spec1 w)) = Wt3 m ρ c (Proc.devRef .tc (Pipeline.arrRef spec1 w)) :=
  (Wt4_arr m ρ c w).trans (((dat1 (Vt3 m ρ) c).arrAt_in w hw _).trans (A_eq1 (Vt3 m ρ) c w))

/-- A buffer no stretch writes and no call stores to holds at the end what it held at launch. -/
theorem Wt4_kept (c : Dev nD) (r : Ref sig .tc) (h : r ∉ hostOps0_W ∧ r ∉ hostOps1_W
      ∧ (∀ w, Pipeline.arrRef spec0 w = r → (cfg0.win w).isOut = false)
      ∧ ∀ w, Pipeline.arrRef spec1 w = r → (cfg1.win w).isOut = false) :
    Wt4 m ρ c (Proc.devRef .tc r) = m ((c : Thread nD τ).loc r) := by
  obtain ⟨h0, h1, h2, h4⟩ := h
  have e4 : Wt4 m ρ c (Proc.devRef .tc r) = Wt3 m ρ c (Proc.devRef .tc r) := by
    by_cases hr : ∃ w, Pipeline.arrRef spec1 w = r
    · obtain ⟨w, rfl⟩ := hr; exact Wt4_in m ρ c w (h4 w rfl)
    · exact Wt4_of_ne m ρ c r fun w e => hr ⟨w, e⟩
  have e2 : Wt2 m ρ c (Proc.devRef .tc r) = Wt1 m ρ c (Proc.devRef .tc r) := by
    by_cases hr : ∃ w, Pipeline.arrRef spec0 w = r
    · obtain ⟨w, rfl⟩ := hr; exact Wt2_in m ρ c w (h2 w rfl)
    · exact Wt2_of_ne m ρ c r fun w e => hr ⟨w, e⟩
  exact e4.trans ((Wt3_of m ρ c r h1).trans (e2.trans (Wt1_of m ρ c r h0)))

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Vt1 m ρ) c
  | ⟨1, _⟩ => fun c => dat1 (Vt3 m ρ) c
abbrev 𝒱h : Variants := Variants.none
abbrev Lh : GSem nD τ sig → Finset Unit := fun _ => ∅
abbrev lvh : GSem nD τ sig → Unit → ℕ := fun _ _ => 0
abbrev Rst (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (Wt4 m ρ c) ∗ ∃ r, prngReg c r)

set_option backward.isDefEq.respectTransparency.types false in
/-- A call taken between two valuations of the buffers: its arrays are read off the first, and the second differs from it
    only at them, where it holds what the call leaves. -/
def regH (p : Fin 2) (lf : Pipeline.LaunchFacts (nD := nD) (τ := τ) cfgs p) (W W' : Dev nD → Valuation τ sig (Elt F))
    (hbody : ∀ c, BodyObligation (pdatsH m ρ p c) (defs₀ (F := F)) 𝒱h () Set.univ)
    (hq : ∀ c w, (pdatsH m ρ p c).q w = fullShare) (howed : ∀ c t, (pdatsH m ρ p c).owed t = 0)
    (hrec : ∀ c, (pdatsH m ρ p c).recorded 0 = Set.univ)
    (hA : ∀ c w, (pdatsH m ρ p c).A w = W c (Proc.devRef .tc (Pipeline.arrRef (cfgs p).spec w)))
    (hin : ∀ c, (Pipeline.ΦA (cfgs p).spec c : sProp 𝕄) ⊢ (pdatsH m ρ p c).Φ 0)
    (hout : ∀ c, (pdatsH m ρ p c).Φ (Fin.last _) ⊢ (Pipeline.ΦA (cfgs p).spec c : sProp 𝕄))
    (hF : ∀ c w, (pdatsH m ρ p c).arrAt w (cfgs p).N = W' c (Proc.devRef .tc (Pipeline.arrRef (cfgs p).spec w)))
    (hrest : ∀ c b, b ∉ Finset.univ.image (Pipeline.arrRef (cfgs p).spec) → W' c (Proc.devRef .tc b) = W c (Proc.devRef .tc b)) :
    Pipeline.RegionSeg (pcfgs (F := F)) admH (pdatsH m ρ) () defs₀ 𝒱h Lh lvh p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lh lvh p howed
  pre c := iprop(StableHlo.held (c : Thread nD τ) (Pipeline.ucRefs τ sig) (W c) ∗ Rst c)
  post c := iprop(StableHlo.held (c : Thread nD τ) (Pipeline.ucRefs τ sig) (W' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    unfold Pipeline.Dat.owesAt Pipeline.owesWithin
    rw [howed c]
    have hsplit := Pipeline.arrays_of_unscopedBufs (p := p) (pcfgs (F := F)) admH (pdatsH m ρ) lf.win lf.arr_whole c
      ((pdatsH m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    icases HO with ⟨%W, HO⟩; iexists W; isplitr; · ipureintro; exact fun _ _ => Or.inl ((hrec c).symm ▸ trivial)
    iexact HO
  hin c := by
    refine .trans ?_ (hin c)
    unfold Pipeline.ΦA
    iintro ⟨Hp, -, Hr⟩
    iframe
  hout c := by
    rw [Pipeline.ownSems0_none]
    refine (hout c).trans ?_
    unfold Pipeline.ΦA
    iintro ⟨Hr, Hp⟩
    iframe
    iempintro
  hexit c := by
    unfold Pipeline.Dat.owesAt Pipeline.owesWithin
    rw [howed c]
    have hjoin := Pipeline.unscopedBufs_of_arrays (p := p) (pcfgs (F := F)) admH (Ix := Unit) (Name := ℕ) (U := UR sig nD τ) (Lvl := ℕ)
      lf.win lf.arr_whole c (pdatsH m ρ) ((pdatsH m ρ p c).share_full (hq c))
      (fun b => W c b) (fun b => W' c b) ((pdatsH m ρ p c).arrAt · (cfgs p).N) (hF c) (hrest c)
    rw [Pipeline.unscopedBufs_held] at hjoin
    iintro ⟨Ha, HO, HY, Hrest⟩
    imodintro
    isplitl [Ha Hrest]
    · iapply hjoin; iframe
    isplitl [HY]; · iexact HY
    icases HO with ⟨%W, -, HO⟩; iexists W; iexact HO

abbrev regH0 := regH m ρ 0 launch0 (Wt1 m ρ) (Wt2 m ρ) (body_obligation0 (Vt1 m ρ)) (fun _ _ => rfl) (fun _ _ => rfl) (fun _ => rfl) (fun _ _ => rfl)
  (fun _ => .rfl) (fun _ => .rfl) (fun c w => (Wt2_arr m ρ c w).symm)
  fun c b hb => Wt2_of_ne m ρ c b fun w e => hb (Finset.mem_image.mpr ⟨w, Finset.mem_univ _, e⟩)
abbrev regH1 := regH m ρ 1 launch1 (Wt3 m ρ) (Wt4 m ρ) (body_obligation1 (Vt3 m ρ)) (fun _ _ => rfl) (fun _ _ => rfl) (fun _ => rfl) (fun _ _ => rfl)
  (hin1 (Vt3 m ρ)) (hout1 (Vt3 m ρ)) (fun c w => (Wt4_arr m ρ c w).symm)
  fun c b hb => Wt4_of_ne m ρ c b fun w e => hb (Finset.mem_image.mpr ⟨w, Finset.mem_univ _, e⟩)

abbrev segsH : List (Pipeline.Seg (pcfgs (F := F)) admH (pdatsH m ρ) () defs₀ 𝒱h Lh lvh) :=
  [ .host (hsegH hostOps0 hostOps0_sub hostOps0_fresh (Wt0 m ρ)),
    .region (regH0 m ρ),
    .host (hsegH hostOps1 hostOps1_sub hostOps1_fresh (Wt2 m ρ)),
    .region (regH1 m ρ) ]
theorem main_runH (c : Dev nD) : main (F := F) c = Pipeline.Seg.run (segsH m ρ) := (main_chain c).trans (by chain_rfl)

set_option backward.isDefEq.respectTransparency.types false in
/-- Every fair run ends, with the result buffer at what the second call's stores leave and every argument as launched. -/
theorem run_all : θ_run defs (onTc (τ := τ) (main (F := F))) ⟨m, fun _ => 0, ρ⟩ (fun r => ∀ c : Dev nD,
      r.2.mem ((c.tc : Thread nD τ).loc main_v45) = (dat1 (Vt3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) admH (pdatsH m ρ) () cellOf_inj emb₁ defs₀ 𝒱h Lh lvh m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ Rst c)) (Tₙ := Tlast m ρ)
    (hch := ⟨fun _ => .rfl, fun _ => .rfl, fun _ => .rfl, fun _ => .rfl, fun _ => sep_assoc'⟩)
    (hinit := by
      refine Pipeline.initEach Lh lvh fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = Wt4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt4 m ρ c) s')
      isplitl [Hh] <;> iassumption)
    (hQ := fun s h c =>
      have k (r : Ref sig .tc) hs hr := (h c _ (mem_ucH r hs)).trans (Wt4_kept m ρ c r hr)
      ⟨(h c _ (mem_ucH main_v45 (by decide))).trans (Wt4_arr m ρ c 11),
       k main_arg0 (by decide) (by decide), k main_arg1 (by decide) (by decide), k main_arg2 (by decide) (by decide), k main_arg3 (by decide) (by decide), k main_arg4 (by decide) (by decide),
       k main_arg5 (by decide) (by decide), k main_arg6 (by decide) (by decide), k main_arg7 (by decide) (by decide), k main_arg8 (by decide) (by decide), k main_arg9 (by decide) (by decide),
       k main_arg10 (by decide) (by decide), k main_arg11 (by decide) (by decide), k main_arg12 (by decide) (by decide), k main_arg13 (by decide) (by decide)⟩)

theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_all m ρ)

end Cert.Kernel.Hand

end
-- ==== Proof.KI.R0.lean ====
import proofs.«414551_j48034914238531_3_alg».proof.Proof.Gen.KernelIdeal.Launch
import proofs.«414551_j48034914238531_3_alg».proof.Proof.Gen.KernelIdeal.Skeleton
import proofs.«414551_j48034914238531_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.SL Idealize.SL.RA
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

/-- The block of window `w` at point `t`, read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S4000x128 := Rect.unit (s := S4000x128) ![0, 0] S4000x128.size inb_S4000x128_S4000x128_0_0
abbrev rN0 : Rect S4000x1 := Rect.unit (s := S4000x1) ![0, 0] S4000x1.size inb_S4000x1_S4000x1_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output block as a function of the six input blocks: the single store's payload. -/
def out0_6 (x0 : Vec F S4000x128 .f32) (x1 : Vec F S4000x128 .f32) (x2 : Vec F S4000x1 .f32) (x3 : Vec F S128x128 .f32) (x4 : Vec F S128x128 .f32) (x5 : Vec F S1x128 .f32) : Vec F S4000x128 .bf16 :=
  View.canon [⟨rA0, k0_pay1 (k0_pay2 (View.ld x2 rN0) (View.ld x0 rA0) (View.ld x1 rA0) (View.ld x3 rW0) (View.ld x4 rW0) (View.ld x5 rB0))⟩]

theorem cover0_6 (p0 : Vec F S4000x128 .bf16) (y : S4000x128.Idx) :
    ∃ pc ∈ ([⟨rA0, p0⟩] : List (View.Piece (Elt F) S4000x128 .bf16)), y ∈ pc.1.set :=
  View.cover_of_tiled [⟨rA0, p0⟩] S4000x128.size (by rfl) y

/-- Every input block stays as found and the output block is `out0_6` of them; nothing is carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input block is left as found, so the contents handed in at a point are that point's block. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

end Cert.KernelIdeal.Hand

end
-- ==== Proof.KI.R0Body.lean ====
import proofs.«414551_j48034914238531_3_alg».proof.Proof.KI.R0

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Run on whole buffers holding `x0 … x5`, the body leaves them as they were and the output buffer at `out0_6` of them:
    its one store covers the block. -/
theorem sound_kernel0 (c : Dev nD) (E : Set ℕ) (i : grid0.Coords) {arg1 arg2 : Memref sig .tc .vmem S4000x128 .f32} {arg3 : Memref sig .tc .vmem S4000x1 .f32}
    {arg4 arg5 : Memref sig .tc .vmem S128x128 .f32} {arg6 : Memref sig .tc .vmem S1x128 .f32} {arg7 : Memref sig .tc .vmem S4000x128 .bf16}
    (harg1 : arg1.IsWhole) (harg2 : arg2.IsWhole) (harg3 : arg3.IsWhole) (harg4 : arg4.IsWhole) (harg5 : arg5.IsWhole) (harg6 : arg6.IsWhole) (harg7 : arg7.IsWhole)
    (x0 x1 : Vec F S4000x128 .f32) (x2 : Vec F S4000x1 .f32) (x3 x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

def bodyPre0 (c : Dev nD) (t : Fin cfg0.N) : sProp 𝕄 :=
  let P (w : Fin cfg0.W) : sProp 𝕄 := iprop(∃ d, owns (c : Thread nD τ) ((cfg0.win w).stage (cfg0.slots t w)) fullShare ((dat0 V c).before w t d))
  iprop((dat0 V c).Φ t.castSucc ∗ (dat0 V c).owesAt () t.castSucc ∗ P 0 ∗ P 1 ∗ P 2 ∗ P 3 ∗ P 4 ∗ P 5 ∗ P 6)

def bodyPost0 (c : Dev nD) (t : Fin cfg0.N) : sProp 𝕄 :=
  iprop((dat0 V c).Φ t.castSucc ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (iblk0 V c 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ (iblk0 V c 0 t) (iblk0 V c 1 t) (iblk0 V c 2 t) (iblk0 V c 3 t) (iblk0 V c 4 t) (iblk0 V c 5 t) _)
  iframe H0 H1 H2 H3 H4 H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«414551_j48034914238531_3_alg».proof.Proof.Gen.KernelIdeal.Launch
import proofs.«414551_j48034914238531_3_alg».proof.Proof.Gen.KernelIdeal.Skeleton
import proofs.«414551_j48034914238531_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

theorem liveAt1 : ∀ (w : Fin cfg1.W) (t : Fin cfg1.N), w ≠ 11 → cfg1.idle w (grid1.coords t) = false := by decide +kernel

theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel

theorem liveAt1_11 : ∀ t : Fin cfg1.N, cond1_1 (grid1.coords t) → cfg1.idle 11 (grid1.coords t) = false := by decide +kernel

abbrev ms1_0 (t : Fin cfg1.N) : Memref sig .tc .vmem S4000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4000x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S32x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S64x1 .f32 := win1_11.stage (cfg1.slots t 11)
abbrev hs1_11 (t : Fin cfg1.N) : (ms1_11 t).IsWhole := hstage1_11 ((cfg1.slots t 11).cast nbuf1_11)

abbrev scM1_0 : Memref sig .tc .vmem S64x128 .f32 := Memref.whole cc1_scratch0
abbrev scM1_1 : Memref sig .tc .vmem S64x1 .f32 := Memref.whole cc1_scratch1
abbrev VS1_0 : View sig .tc .vmem S64x128 .f32 := scM1_0.view
abbrev VS1_1 : View sig .tc .vmem S64x1 .f32 := scM1_1.view

abbrev VO1_11 : View sig .tc .vmem S64x1 .f32 := (Memref.whole cc1_stg11_0 : Memref sig .tc .vmem S64x1 .f32).view

-- The first call's scoped buffers, each at some contents, beside `X`.
abbrev withOthers1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ X)

-- What a region hands its body beside the windows, with the two accumulators owned at some contents.
theorem PhiA1 (c : Dev nD) :
    (Pipeline.ΦA spec1 c : sProp 𝕄) = iprop(withOthers1 c iprop((∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

-- A whole buffer owned at `X` is its cells at the one contents that reads `X`.
theorem owns_unread {S : Shape} {φ : EltTy} (c : Dev nD) {M : Memref sig .tc .vmem S φ} (h : M.IsWhole) (X : Vec F S φ) :
    (owns (c : Thread nD τ) M fullShare X : sProp 𝕄) = (M.view.loc (c : Thread nD τ) ↦[M.view.set]{fullShare} h.unread X) := by
  have h₁ : (owns (c : Thread nD τ) M fullShare X : sProp 𝕄) ⊢ (M.view.loc (c : Thread nD τ) ↦[M.view.set]{fullShare} h.unread X) := by
    unfold owns; iintro ⟨%f, %hf, H⟩; obtain rfl := h.eq_unread hf; iexact H
  have h₂ : (M.view.loc (c : Thread nD τ) ↦[M.view.set]{fullShare} h.unread X : sProp 𝕄) ⊢ owns (c : Thread nD τ) M fullShare X := by
    unfold owns; iintro H; iexists _; isplitr; · ipureintro; exact h.read_unread _
    iexact H
  exact BI.equiv_iff.mp ⟨h₁, h₂⟩

end Cert.KernelIdeal.Hand

end
-- ==== Proof.KI.R1A.lean ====
import proofs.«414551_j48034914238531_3_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x128 .f32) (harg13 : arg13.IsWhole) (arg14 : Memref sig .tc .vmem S64x1 .f32) (harg14 : arg14.IsWhole) (hc0 : cond1_0 i) (hc1 : ¬cond1_1 i)
    (x0 : Vec F S4000x128 .f32) (x1 : Vec F S4000x128 .f32) (x2 : Vec F S4000x1 .f32) (x3 : Vec F S4000x1 .i32) (x4 : Vec F S128x128 .f32) (x5 : Vec F S128x128 .f32) (x6 : Vec F S1x128 .f32) (x7 : Vec F S128x32 .f32) (x8 : Vec F S1x32 .f32) (x9 : Vec F S32x1 .f32) (x10 : Vec F S1x1 .f32) :
    Σ' (LS0 : List (View.Piece (Elt F) S64x128 .f32)), { LS1 : List (View.Piece (Elt F) S64x1 .f32) //
      ∀ (xi11 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__layer2_pool_decode_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi11 E K => ?run⟩
  case run =>
    simp only [cc1__layer2_pool_decode_kernel_eq_skeleton]; unfold cc1__layer2_pool_decode_kernel_skel
    simp only [k1_part1_eq_skeleton]; unfold k1_part1_skel
    rw [owns_unread c harg1, owns_unread c harg2, owns_unread c harg3, owns_unread c harg4, owns_unread c harg5, owns_unread c harg6, owns_unread c harg7, owns_unread c harg8, owns_unread c harg9, owns_unread c harg10, owns_unread c harg11, owns_unread c harg12]
    unfold owns
    iintro ⟨H0, H1, H2, H3, H4, H5, H6, H7, H8, H9, H10, H11, ⟨%ds0, %fs0, -, HS0⟩, ⟨%ds1, %fs1, -, HS1⟩, Hk⟩
    sl_exec (disch := first | exact hc0 | exact hc1)
    sl_step
    iapply Hk
    iframe H0 H1 H2 H3 H4 H5 H6 H7 H8 H9 H10 H11
    isplitl [HS0]; · iexists _; iexact HS0
    iexists _; iexact HS1

end Cert.KernelIdeal.Hand

end
-- ==== Proof.KI.R1B.lean ====
import proofs.«414551_j48034914238531_3_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x128 .f32) (harg13 : arg13.IsWhole) (arg14 : Memref sig .tc .vmem S64x1 .f32) (harg14 : arg14.IsWhole) (hc0 : ¬cond1_0 i) (hc1 : ¬cond1_1 i)
    (x0 : Vec F S4000x128 .f32) (x1 : Vec F S4000x128 .f32) (x2 : Vec F S4000x1 .f32) (x3 : Vec F S4000x1 .i32) (x4 : Vec F S128x128 .f32) (x5 : Vec F S128x128 .f32) (x6 : Vec F S1x128 .f32) (x7 : Vec F S128x32 .f32) (x8 : Vec F S1x32 .f32) (x9 : Vec F S32x1 .f32) (x10 : Vec F S1x1 .f32) (xs0 : Vec F S64x128 .f32) (xs1 : Vec F S64x1 .f32) :
    Σ' (LS0 : List (View.Piece (Elt F) S64x128 .f32)), { LS1 : List (View.Piece (Elt F) S64x1 .f32) //
      ∀ (xi11 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__layer2_pool_decode_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun xi11 E K => ?run⟩
  case run =>
    simp only [cc1__layer2_pool_decode_kernel_eq_skeleton]; unfold cc1__layer2_pool_decode_kernel_skel
    simp only [k1_part1_eq_skeleton]; unfold k1_part1_skel
    rw [owns_unread c harg1, owns_unread c harg2, owns_unread c harg3, owns_unread c harg4, owns_unread c harg5, owns_unread c harg6, owns_unread c harg7, owns_unread c harg8, owns_unread c harg9, owns_unread c harg10, owns_unread c harg11, owns_unread c harg12, owns_unread c harg13, owns_unread c harg14]
    iintro ⟨H0, H1, H2, H3, H4, H5, H6, H7, H8, H9, H10, H11, HS0, HS1, Hk⟩
    sl_exec (disch := first | exact hc0 | exact hc1)
    sl_step
    iapply Hk
    iframe H0 H1 H2 H3 H4 H5 H6 H7 H8 H9 H10 H11
    isplitl [HS0]; · iexists _; iexact HS0
    iexists _; iexact HS1

end Cert.KernelIdeal.Hand

end
-- ==== Proof.KI.R1C.lean ====
import proofs.«414551_j48034914238531_3_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x128 .f32) (harg13 : arg13.IsWhole) (arg14 : Memref sig .tc .vmem S64x1 .f32) (harg14 : arg14.IsWhole) (hc0 : ¬cond1_0 i) (hc1 : cond1_1 i)
    (x0 : Vec F S4000x128 .f32) (x1 : Vec F S4000x128 .f32) (x2 : Vec F S4000x1 .f32) (x3 : Vec F S4000x1 .i32) (x4 : Vec F S128x128 .f32) (x5 : Vec F S128x128 .f32) (x6 : Vec F S1x128 .f32) (x7 : Vec F S128x32 .f32) (x8 : Vec F S1x32 .f32) (x9 : Vec F S32x1 .f32) (x10 : Vec F S1x1 .f32) (xs0 : Vec F S64x128 .f32) (xs1 : Vec F S64x1 .f32) :
    Σ' (L11 : List (View.Piece (Elt F) S64x1 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__layer2_pool_decode_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__layer2_pool_decode_kernel_eq_skeleton]; unfold cc1__layer2_pool_decode_kernel_skel
    simp only [k1_part1_eq_skeleton]; unfold k1_part1_skel
    rw [owns_unread c harg1, owns_unread c harg2, owns_unread c harg3, owns_unread c harg4, owns_unread c harg5, owns_unread c harg6, owns_unread c harg7, owns_unread c harg8, owns_unread c harg9, owns_unread c harg10, owns_unread c harg11, owns_unread c harg13, owns_unread c harg14]
    unfold owns
    iintro ⟨H0, H1, H2, H3, H4, H5, H6, H7, H8, H9, H10, ⟨%d11, %f11, -, H11⟩, HS0, HS1, Hk⟩
    sl_exec (disch := first | exact hc0 | exact hc1)
    sl_step
    iapply Hk
    iframe H0 H1 H2 H3 H4 H5 H6 H7 H8 H9 H10
    isplitl [H11]; · iexists _; iexact H11
    isplitl [HS0]; · iexists _; iexact HS0
    iexists _; iexact HS1

end Cert.KernelIdeal.Hand

end
-- ==== Proof.KI.R1Dat.lean ====
import proofs.«414551_j48034914238531_3_alg».proof.Proof.KI.R1A
import proofs.«414551_j48034914238531_3_alg».proof.Proof.KI.R1B
import proofs.«414551_j48034914238531_3_alg».proof.Proof.KI.R1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem N1_eq : cfg1.N = 25 := N_1
theorem is_first (t : Fin cfg1.N) (h : t.val = 0) : cond1_0 (grid1.coords t) := (hcond1_0 t).mpr (by rw [h])
theorem not_first (t : Fin cfg1.N) (h : t.val ≠ 0) : ¬cond1_0 (grid1.coords t) := fun hc => by
  have h1 := (hcond1_0 t).mp hc; have hN : t.val < 25 := lt_of_lt_of_eq t.isLt N1_eq; omega
theorem is_last (t : Fin cfg1.N) (h : t.val = 24) : cond1_1 (grid1.coords t) := (hcond1_1 t).mpr (by rw [h])
theorem not_last (t : Fin cfg1.N) (h : t.val ≠ 24) : ¬cond1_1 (grid1.coords t) := fun hc => by
  have h1 := (hcond1_1 t).mp hc; have hN : t.val < 25 := lt_of_lt_of_eq t.isLt N1_eq; omega

abbrev bA (c : Dev nD) (t : Fin cfg1.N) : Vec F S4000x128 .f32 := iblk1 V c 0 t
abbrev bX (c : Dev nD) (t : Fin cfg1.N) : Vec F S4000x128 .f32 := iblk1 V c 1 t
abbrev bN (c : Dev nD) (t : Fin cfg1.N) : Vec F S4000x1 .f32 := iblk1 V c 2 t
abbrev bG (c : Dev nD) (t : Fin cfg1.N) : Vec F S4000x1 .i32 := iblk1 V c 3 t
abbrev bW1 (c : Dev nD) (t : Fin cfg1.N) : Vec F S128x128 .f32 := iblk1 V c 4 t
abbrev bW2 (c : Dev nD) (t : Fin cfg1.N) : Vec F S128x128 .f32 := iblk1 V c 5 t
abbrev bB (c : Dev nD) (t : Fin cfg1.N) : Vec F S1x128 .f32 := iblk1 V c 6 t
abbrev bD1 (c : Dev nD) (t : Fin cfg1.N) : Vec F S128x32 .f32 := iblk1 V c 7 t
abbrev bE1 (c : Dev nD) (t : Fin cfg1.N) : Vec F S1x32 .f32 := iblk1 V c 8 t
abbrev bD2 (c : Dev nD) (t : Fin cfg1.N) : Vec F S32x1 .f32 := iblk1 V c 9 t
abbrev bE2 (c : Dev nD) (t : Fin cfg1.N) : Vec F S1x1 .f32 := iblk1 V c 10 t

abbrev Acc (F : FTy → Type) [FloatOps F] := Vec F S64x128 .f32 × Vec F S64x1 .f32

abbrev runA (c : Dev nD) (t : Fin cfg1.N) (h0 : t.val = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (is_first t h0) (not_last t (by omega)) (bA V c t) (bX V c t) (bN V c t) (bG V c t) (bW1 V c t) (bW2 V c t) (bB V c t) (bD1 V c t) (bE1 V c t) (bD2 V c t) (bE2 V c t)
abbrev runB (c : Dev nD) (t : Fin cfg1.N) (h0 : t.val ≠ 0) (h1 : t.val ≠ 24) (s : Acc F) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (not_first t h0) (not_last t h1) (bA V c t) (bX V c t) (bN V c t) (bG V c t) (bW1 V c t) (bW2 V c t) (bB V c t) (bD1 V c t) (bE1 V c t) (bD2 V c t) (bE2 V c t) s.1 s.2
abbrev runC (c : Dev nD) (t : Fin cfg1.N) (h0 : t.val ≠ 0) (h1 : t.val = 24) (s : Acc F) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (not_first t h0) (is_last t h1) (bA V c t) (bX V c t) (bN V c t) (bG V c t) (bW1 V c t) (bW2 V c t) (bB V c t) (bD1 V c t) (bE1 V c t) (bD2 V c t) (bE2 V c t) s.1 s.2

-- What covering stores `L` leave in a buffer depends on neither the view nor the prior contents.
abbrev rd {S : Shape} {φ : EltTy} (v : View sig .tc .vmem S φ) (L : List (View.Piece (Elt F) S φ)) : Vec F S φ :=
  v.read (Elt F) (v.writes (Elt F) v.junk L)

theorem owns_rd {S : Shape} {φ : EltTy} (c : Dev nD) (M : Memref sig .tc .vmem S φ) (v : View sig .tc .vmem S φ) (f) (L : List (View.Piece (Elt F) S φ))
    (h : ∀ y, ∃ pc ∈ L, y ∈ pc.1.set) :
    (M.view.loc (c : Thread nD τ) ↦[M.view.set]{fullShare} M.view.writes (Elt F) f L : sProp 𝕄) ⊢ owns (c : Thread nD τ) M fullShare (rd v L) := by
  iintro H; unfold owns; iexists _; isplitr
  swap; · iexact H
  ipureintro; exact View.read_writes_of_cover _ _ _ _ _ h

variable (c : Dev nD) (t : Fin cfg1.N)

theorem coverA0 (h0) (y) : ∃ pc ∈ (runA V c t h0).1, y ∈ pc.1.set := View.cover_of_tiledL _ S64x128.size (by sl_kernel_rfl) y
theorem coverA1 (h0) (y) : ∃ pc ∈ (runA V c t h0).2.1, y ∈ pc.1.set := View.cover_of_tiledL _ S64x1.size (by sl_kernel_rfl) y
theorem coverB0 (h0 h1 s) (y) : ∃ pc ∈ (runB V c t h0 h1 s).1, y ∈ pc.1.set := View.cover_of_tiledL _ S64x128.size (by sl_kernel_rfl) y
theorem coverB1 (h0 h1 s) (y) : ∃ pc ∈ (runB V c t h0 h1 s).2.1, y ∈ pc.1.set := View.cover_of_tiledL _ S64x1.size (by sl_kernel_rfl) y
theorem coverCo (h0 h1 s) (y) : ∃ pc ∈ (runC V c t h0 h1 s).1, y ∈ pc.1.set := View.cover_of_tiledL _ S64x1.size (by sl_kernel_rfl) y
theorem coverC0 (h0 h1 s) (y) : ∃ pc ∈ (runC V c t h0 h1 s).2.1, y ∈ pc.1.set := View.cover_of_tiledL _ S64x128.size (by sl_kernel_rfl) y
theorem coverC1 (h0 h1 s) (y) : ∃ pc ∈ (runC V c t h0 h1 s).2.2.1, y ∈ pc.1.set := View.cover_of_tiledL _ S64x1.size (by sl_kernel_rfl) y

-- After the body at position `n`: the output block (stored at the last point only), then the sums and the counts.
def outsAt1 (c : Dev nD) : (n : ℕ) → n < cfg1.N → Vec F S64x1 .f32 × Acc F
  | 0, hn => (VO1_11.read (Elt F) VO1_11.junk, rd VS1_0 (runA V c ⟨0, hn⟩ rfl).1, rd VS1_1 (runA V c ⟨0, hn⟩ rfl).2.1)
  | n + 1, hn =>
    if h1 : n + 1 = 24 then
      (rd VO1_11 (runC V c ⟨n + 1, hn⟩ n.succ_ne_zero h1 (outsAt1 c n (Nat.lt_of_succ_lt hn)).2).1,
       rd VS1_0 (runC V c ⟨n + 1, hn⟩ n.succ_ne_zero h1 (outsAt1 c n (Nat.lt_of_succ_lt hn)).2).2.1,
       rd VS1_1 (runC V c ⟨n + 1, hn⟩ n.succ_ne_zero h1 (outsAt1 c n (Nat.lt_of_succ_lt hn)).2).2.2.1)
    else
      (VO1_11.read (Elt F) VO1_11.junk,
       rd VS1_0 (runB V c ⟨n + 1, hn⟩ n.succ_ne_zero h1 (outsAt1 c n (Nat.lt_of_succ_lt hn)).2).1,
       rd VS1_1 (runB V c ⟨n + 1, hn⟩ n.succ_ne_zero h1 (outsAt1 c n (Nat.lt_of_succ_lt hn)).2).2.1)

abbrev prev1 : Acc F := (outsAt1 V c (t.val - 1) (Nat.lt_of_le_of_lt (Nat.sub_le _ _) t.isLt)).2

theorem outsAt1_A (h0 : t.val = 0) :
    outsAt1 V c t.val t.isLt = (VO1_11.read (Elt F) VO1_11.junk, rd VS1_0 (runA V c t h0).1, rd VS1_1 (runA V c t h0).2.1) := by
  obtain ⟨n, hn⟩ := t
  cases n with
  | zero => exact rfl
  | succ n => exact absurd h0 (Nat.succ_ne_zero n)

theorem outsAt1_B (h0 : t.val ≠ 0) (h1 : t.val ≠ 24) :
    outsAt1 V c t.val t.isLt = (VO1_11.read (Elt F) VO1_11.junk, rd VS1_0 (runB V c t h0 h1 (prev1 V c t)).1, rd VS1_1 (runB V c t h0 h1 (prev1 V c t)).2.1) := by
  obtain ⟨n, hn⟩ := t
  cases n with
  | zero => exact absurd rfl h0
  | succ n => exact (dif_neg h1).trans rfl

theorem outsAt1_C (h0 : t.val ≠ 0) (h1 : t.val = 24) :
    outsAt1 V c t.val t.isLt = (rd VO1_11 (runC V c t h0 h1 (prev1 V c t)).1, rd VS1_0 (runC V c t h0 h1 (prev1 V c t)).2.1, rd VS1_1 (runC V c t h0 h1 (prev1 V c t)).2.2.1) := by
  obtain ⟨n, hn⟩ := t
  cases n with
  | zero => exact absurd rfl h0
  | succ n => exact (dif_pos h1).trans rfl

-- Between points each accumulator is owned at what the point before left in it.
def PhiS (c : Dev nD) : (n : ℕ) → n ≤ cfg1.N → sProp 𝕄
  | 0, _ => Pipeline.ΦA spec1 c
  | n + 1, hn => iprop(withOthers1 c iprop(owns (c : Thread nD τ) scM1_0 fullShare (outsAt1 V c n hn).2.1 ∗ owns (c : Thread nD τ) scM1_1 fullShare (outsAt1 V c n hn).2.2) ∗ (∃ r, prngReg c r))

theorem PhiS_pos (n : ℕ) (h : n ≤ cfg1.N) (hz : n ≠ 0) :
    PhiS V c n h = iprop(withOthers1 c iprop(owns (c : Thread nD τ) scM1_0 fullShare (outsAt1 V c (n - 1) (by omega)).2.1 ∗ owns (c : Thread nD τ) scM1_1 fullShare (outsAt1 V c (n - 1) (by omega)).2.2) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).1
  Φ t := PhiS V c t.val (Nat.le_of_lt_succ t.isLt)
  q _ := fullShare
  owed _ := 0

theorem A_eq1 (w : Fin cfg1.W) : (dat1 V c).A w = V c (Pipeline.arrRef spec1 w) := rfl
theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl
theorem before1_2 (d) : (dat1 V c).before 2 t d = iblk1 V c 2 t :=
  ((dat1 V c).before_in_eq_fetched 2 rfl (fun _ => rfl) (fun _ _ _ => rfl) (fun _ => rfl) t d).trans rfl
theorem before1_3 (d) : (dat1 V c).before 3 t d = iblk1 V c 3 t :=
  ((dat1 V c).before_in_eq_fetched 3 rfl (fun _ => rfl) (fun _ _ _ => rfl) (fun _ => rfl) t d).trans rfl
theorem before1_4 (d) : (dat1 V c).before 4 t d = iblk1 V c 4 t :=
  ((dat1 V c).before_in_eq_fetched 4 rfl (fun _ => rfl) (fun _ _ _ => rfl) (fun _ => rfl) t d).trans rfl
theorem before1_5 (d) : (dat1 V c).before 5 t d = iblk1 V c 5 t :=
  ((dat1 V c).before_in_eq_fetched 5 rfl (fun _ => rfl) (fun _ _ _ => rfl) (fun _ => rfl) t d).trans rfl
theorem before1_6 (d) : (dat1 V c).before 6 t d = iblk1 V c 6 t :=
  ((dat1 V c).before_in_eq_fetched 6 rfl (fun _ => rfl) (fun _ _ _ => rfl) (fun _ => rfl) t d).trans rfl
theorem before1_7 (d) : (dat1 V c).before 7 t d = iblk1 V c 7 t :=
  ((dat1 V c).before_in_eq_fetched 7 rfl (fun _ => rfl) (fun _ _ _ => rfl) (fun _ => rfl) t d).trans rfl
theorem before1_8 (d) : (dat1 V c).before 8 t d = iblk1 V c 8 t :=
  ((dat1 V c).before_in_eq_fetched 8 rfl (fun _ => rfl) (fun _ _ _ => rfl) (fun _ => rfl) t d).trans rfl
theorem before1_9 (d) : (dat1 V c).before 9 t d = iblk1 V c 9 t :=
  ((dat1 V c).before_in_eq_fetched 9 rfl (fun _ => rfl) (fun _ _ _ => rfl) (fun _ => rfl) t d).trans rfl
theorem before1_10 (d) : (dat1 V c).before 10 t d = iblk1 V c 10 t :=
  ((dat1 V c).before_in_eq_fetched 10 rfl (fun _ => rfl) (fun _ _ _ => rfl) (fun _ => rfl) t d).trans rfl
theorem leaves1_0 : (dat1 V c).leavesExact 0 t = owns (c : Thread nD τ) (ms1_0 t) fullShare (iblk1 V c 0 t) := by
  unfold Dat.leavesExact; rw [liveAt1 0 t (by decide)]; rfl
theorem leaves1_1 : (dat1 V c).leavesExact 1 t = owns (c : Thread nD τ) (ms1_1 t) fullShare (iblk1 V c 1 t) := by
  unfold Dat.leavesExact; rw [liveAt1 1 t (by decide)]; rfl
theorem leaves1_2 : (dat1 V c).leavesExact 2 t = owns (c : Thread nD τ) (ms1_2 t) fullShare (iblk1 V c 2 t) := by
  unfold Dat.leavesExact; rw [liveAt1 2 t (by decide)]; rfl
theorem leaves1_3 : (dat1 V c).leavesExact 3 t = owns (c : Thread nD τ) (ms1_3 t) fullShare (iblk1 V c 3 t) := by
  unfold Dat.leavesExact; rw [liveAt1 3 t (by decide)]; rfl
theorem leaves1_4 : (dat1 V c).leavesExact 4 t = owns (c : Thread nD τ) (ms1_4 t) fullShare (iblk1 V c 4 t) := by
  unfold Dat.leavesExact; rw [liveAt1 4 t (by decide)]; rfl
theorem leaves1_5 : (dat1 V c).leavesExact 5 t = owns (c : Thread nD τ) (ms1_5 t) fullShare (iblk1 V c 5 t) := by
  unfold Dat.leavesExact; rw [liveAt1 5 t (by decide)]; rfl
theorem leaves1_6 : (dat1 V c).leavesExact 6 t = owns (c : Thread nD τ) (ms1_6 t) fullShare (iblk1 V c 6 t) := by
  unfold Dat.leavesExact; rw [liveAt1 6 t (by decide)]; rfl
theorem leaves1_7 : (dat1 V c).leavesExact 7 t = owns (c : Thread nD τ) (ms1_7 t) fullShare (iblk1 V c 7 t) := by
  unfold Dat.leavesExact; rw [liveAt1 7 t (by decide)]; rfl
theorem leaves1_8 : (dat1 V c).leavesExact 8 t = owns (c : Thread nD τ) (ms1_8 t) fullShare (iblk1 V c 8 t) := by
  unfold Dat.leavesExact; rw [liveAt1 8 t (by decide)]; rfl
theorem leaves1_9 : (dat1 V c).leavesExact 9 t = owns (c : Thread nD τ) (ms1_9 t) fullShare (iblk1 V c 9 t) := by
  unfold Dat.leavesExact; rw [liveAt1 9 t (by decide)]; rfl
theorem leaves1_10 : (dat1 V c).leavesExact 10 t = owns (c : Thread nD τ) (ms1_10 t) fullShare (iblk1 V c 10 t) := by
  unfold Dat.leavesExact; rw [liveAt1 10 t (by decide)]; rfl

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
-- The body at any point, by its case: the invariant hands it the accumulators and takes them back at this point's contents.
theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, leaves1_0, leaves1_1, leaves1_2, leaves1_3, leaves1_4, leaves1_5, leaves1_6, leaves1_7, leaves1_8, leaves1_9, leaves1_10]
  rw [show (dat1 V c).owesAt () t.succ = (dat1 V c).owesAt () t.castSucc from rfl,
    show (dat1 V c).Φ t.succ = PhiS V c (t.val + 1) t.isLt from rfl, PhiS_pos V c _ _ t.val.succ_ne_zero,
    show (dat1 V c).Φ t.castSucc = PhiS V c t.val (Nat.le_of_lt t.isLt) from rfl]
  have hN : t.val < 25 := lt_of_lt_of_eq t.isLt N1_eq
  by_cases h0 : t.val = 0
  · have h1 : t.val ≠ 24 := by omega
    rw [Dat.leavesExact_idle (dat1 V c) 11 t (idleAt1_11 t (not_last t h1)) (noFlush1_11 t (not_last t h1)),
      show outsAt1 V c (t.val + 1 - 1) _ = _ from outsAt1_A V c t h0,
      show PhiS V c t.val _ = Pipeline.ΦA spec1 c by obtain ⟨_, _⟩ := t; subst h0; rfl, PhiA1 c]
    unfold withOthers1
    iintro ⟨⟨⟨Ho1, Ho2, Ho3, Ho4, Ho5, Ho6, Ho7, Ho8, Ho9, Ho10, Ho11, HS0, HS1⟩, Hg⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA V c t h0).2.2 _ Set.univ _)
    iframe H0 H1 H2 H3 H4 H5 H6 H7 H8 H9 H10 H11 HS0 HS1
    iintro ⟨H0, H1, H2, H3, H4, H5, H6, H7, H8, H9, H10, H11, ⟨%es0, HS0⟩, ⟨%es1, HS1⟩⟩
    ihave HS0 := (owns_rd c scM1_0 VS1_0 es0 _ (coverA0 V c t h0)) $$ HS0
    ihave HS1 := (owns_rd c scM1_1 VS1_1 es1 _ (coverA1 V c t h0)) $$ HS1
    iframe Ho1 Ho2 Ho3 Ho4 Ho5 Ho6 Ho7 Ho8 Ho9 Ho10 Ho11 HS0 HS1 Hg Hw H0 H1 H2 H3 H4 H5 H6 H7 H8 H9 H10
    iexists _; iexact H11
  · rw [PhiS_pos V c _ _ h0]
    unfold withOthers1
    by_cases h1 : t.val = 24
    · rw [show (dat1 V c).leavesExact 11 t = owns (c : Thread nD τ) (ms1_11 t) fullShare (outsAt1 V c t.val t.isLt).1 from by
          unfold Dat.leavesExact; rw [liveAt1_11 t (is_last t h1)]; rfl,
        show outsAt1 V c (t.val + 1 - 1) _ = _ from outsAt1_C V c t h0 h1, outsAt1_C V c t h0 h1]
      iintro ⟨⟨⟨Ho1, Ho2, Ho3, Ho4, Ho5, Ho6, Ho7, Ho8, Ho9, Ho10, Ho11, HS0, HS1⟩, Hg⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC V c t h0 h1 (prev1 V c t)).2.2.2 Set.univ _)
      iframe H0 H1 H2 H3 H4 H5 H6 H7 H8 H9 H10 HS0 HS1
      isplitl [H11]; · iexists _; iexact H11
      iintro ⟨H0, H1, H2, H3, H4, H5, H6, H7, H8, H9, H10, ⟨%e11, H11⟩, ⟨%es0, HS0⟩, ⟨%es1, HS1⟩⟩
      ihave H11 := (owns_rd c (ms1_11 t) VO1_11 e11 _ (coverCo V c t h0 h1 _)) $$ H11
      ihave HS0 := (owns_rd c scM1_0 VS1_0 es0 _ (coverC0 V c t h0 h1 _)) $$ HS0
      ihave HS1 := (owns_rd c scM1_1 VS1_1 es1 _ (coverC1 V c t h0 h1 _)) $$ HS1
      iframe
    · rw [Dat.leavesExact_idle (dat1 V c) 11 t (idleAt1_11 t (not_last t h1)) (noFlush1_11 t (not_last t h1)),
        show outsAt1 V c (t.val + 1 - 1) _ = _ from outsAt1_B V c t h0 h1]
      iintro ⟨⟨⟨Ho1, Ho2, Ho3, Ho4, Ho5, Ho6, Ho7, Ho8, Ho9, Ho10, Ho11, HS0, HS1⟩, Hg⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB V c t h0 h1 (prev1 V c t)).2.2 _ Set.univ _)
      iframe H0 H1 H2 H3 H4 H5 H6 H7 H8 H9 H10 H11 HS0 HS1
      iintro ⟨H0, H1, H2, H3, H4, H5, H6, H7, H8, H9, H10, H11, ⟨%es0, HS0⟩, ⟨%es1, HS1⟩⟩
      ihave HS0 := (owns_rd c scM1_0 VS1_0 es0 _ (coverB0 V c t h0 h1 _)) $$ HS0
      ihave HS1 := (owns_rd c scM1_1 VS1_1 es1 _ (coverB1 V c t h0 h1 _)) $$ HS1
      iframe Ho1 Ho2 Ho3 Ho4 Ho5 Ho6 Ho7 Ho8 Ho9 Ho10 Ho11 HS0 HS1 Hg Hw H0 H1 H2 H3 H4 H5 H6 H7 H8 H9 H10
      iexists _; iexact H11

theorem body_obligation1 (c : Dev nD) : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 25 := N1_eq; omega), PhiA1 c]
  unfold withOthers1
  iintro ⟨⟨Ho1, Ho2, Ho3, Ho4, Ho5, Ho6, Ho7, Ho8, Ho9, Ho10, Ho11, HS0, HS1⟩, Hg⟩
  iframe Ho1 Ho2 Ho3 Ho4 Ho5 Ho6 Ho7 Ho8 Ho9 Ho10 Ho11 Hg
  isplitl [HS0] <;> iexists _ <;> iassumption

end Cert.KernelIdeal.Hand

end
-- ==== Proof.KI.Run.lean ====
import proofs.«414551_j48034914238531_3_alg».proof.Proof.KI.R0Body
import proofs.«414551_j48034914238531_3_alg».proof.Proof.KI.R1Dat
import proofs.«414551_j48034914238531_3_alg».proof.Proof.Gen.KernelIdeal.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Wt0 : Dev nD → Valuation τ sig (Elt F) := fun c b => (s₀ m ρ).mem ((c : Dev nD), b)
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb

abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb

theorem Wt1_of (c : Dev nD) (r : Ref sig .tc) (h : r ∉ hostOps0_W) : Wt1 m ρ c (Proc.devRef .tc r) = Wt0 m ρ c (Proc.devRef .tc r) :=
  StableHlo.after_of_writes_sub hostOps0 _ hostOps0_writes h
theorem Wt3_of (c : Dev nD) (r : Ref sig .tc) (h : r ∉ hostOps1_W) : Wt3 m ρ c (Proc.devRef .tc r) = Wt2 m ρ c (Proc.devRef .tc r) :=
  StableHlo.after_of_writes_sub hostOps1 _ hostOps1_writes h
theorem Wt2_in (c : Dev nD) (w : Fin cfg0.W) (hw : (cfg0.win w).isOut = false) :
    Wt2 m ρ c (Proc.devRef .tc (Pipeline.arrRef spec0 w)) = Wt1 m ρ c (Proc.devRef .tc (Pipeline.arrRef spec0 w)) :=
  (Wt2_arr m ρ c w).trans ((dat0 (Vt1 m ρ) c).arrAt_in w hw _)
theorem Wt4_in (c : Dev nD) (w : Fin cfg1.W) (hw : (cfg1.win w).isOut = false) :
    Wt4 m ρ c (Proc.devRef .tc (Pipeline.arrRef spec1 w)) = Wt3 m ρ c (Proc.devRef .tc (Pipeline.arrRef spec1 w)) :=
  (Wt4_arr m ρ c w).trans (((dat1 (Vt3 m ρ) c).arrAt_in w hw _).trans (A_eq1 (Vt3 m ρ) c w))

/-- A buffer no stretch writes and no call stores to holds at the end what it held at launch. -/
theorem Wt4_kept (c : Dev nD) (r : Ref sig .tc) (h : r ∉ hostOps0_W ∧ r ∉ hostOps1_W
      ∧ (∀ w, Pipeline.arrRef spec0 w = r → (cfg0.win w).isOut = false)
      ∧ ∀ w, Pipeline.arrRef spec1 w = r → (cfg1.win w).isOut = false) :
    Wt4 m ρ c (Proc.devRef .tc r) = m ((c : Thread nD τ).loc r) := by
  obtain ⟨h0, h1, h2, h4⟩ := h
  have e4 : Wt4 m ρ c (Proc.devRef .tc r) = Wt3 m ρ c (Proc.devRef .tc r) := by
    by_cases hr : ∃ w, Pipeline.arrRef spec1 w = r
    · obtain ⟨w, rfl⟩ := hr; exact Wt4_in m ρ c w (h4 w rfl)
    · exact Wt4_of_ne m ρ c r fun w e => hr ⟨w, e⟩
  have e2 : Wt2 m ρ c (Proc.devRef .tc r) = Wt1 m ρ c (Proc.devRef .tc r) := by
    by_cases hr : ∃ w, Pipeline.arrRef spec0 w = r
    · obtain ⟨w, rfl⟩ := hr; exact Wt2_in m ρ c w (h2 w rfl)
    · exact Wt2_of_ne m ρ c r fun w e => hr ⟨w, e⟩
  exact e4.trans ((Wt3_of m ρ c r h1).trans (e2.trans (Wt1_of m ρ c r h0)))

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Vt1 m ρ) c
  | ⟨1, _⟩ => fun c => dat1 (Vt3 m ρ) c
abbrev 𝒱h : Variants := Variants.none
abbrev Lh : GSem nD τ sig → Finset Unit := fun _ => ∅
abbrev lvh : GSem nD τ sig → Unit → ℕ := fun _ _ => 0
abbrev Rst (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (Wt4 m ρ c) ∗ ∃ r, prngReg c r)

set_option backward.isDefEq.respectTransparency.types false in
/-- A call taken between two valuations of the buffers: its arrays are read off the first, and the second differs from it
    only at them, where it holds what the call leaves. -/
def regH (p : Fin 2) (lf : Pipeline.LaunchFacts (nD := nD) (τ := τ) cfgs p) (W W' : Dev nD → Valuation τ sig (Elt F))
    (hbody : ∀ c, BodyObligation (pdatsH m ρ p c) (defs₀ (F := F)) 𝒱h () Set.univ)
    (hq : ∀ c w, (pdatsH m ρ p c).q w = fullShare) (howed : ∀ c t, (pdatsH m ρ p c).owed t = 0)
    (hrec : ∀ c, (pdatsH m ρ p c).recorded 0 = Set.univ)
    (hA : ∀ c w, (pdatsH m ρ p c).A w = W c (Proc.devRef .tc (Pipeline.arrRef (cfgs p).spec w)))
    (hin : ∀ c, (Pipeline.ΦA (cfgs p).spec c : sProp 𝕄) ⊢ (pdatsH m ρ p c).Φ 0)
    (hout : ∀ c, (pdatsH m ρ p c).Φ (Fin.last _) ⊢ (Pipeline.ΦA (cfgs p).spec c : sProp 𝕄))
    (hF : ∀ c w, (pdatsH m ρ p c).arrAt w (cfgs p).N = W' c (Proc.devRef .tc (Pipeline.arrRef (cfgs p).spec w)))
    (hrest : ∀ c b, b ∉ Finset.univ.image (Pipeline.arrRef (cfgs p).spec) → W' c (Proc.devRef .tc b) = W c (Proc.devRef .tc b)) :
    Pipeline.RegionSeg (pcfgs (F := F)) admH (pdatsH m ρ) () defs₀ 𝒱h Lh lvh p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lh lvh p howed
  pre c := iprop(StableHlo.held (c : Thread nD τ) (Pipeline.ucRefs τ sig) (W c) ∗ Rst c)
  post c := iprop(StableHlo.held (c : Thread nD τ) (Pipeline.ucRefs τ sig) (W' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    unfold Pipeline.Dat.owesAt Pipeline.owesWithin
    rw [howed c]
    have hsplit := Pipeline.arrays_of_unscopedBufs (p := p) (pcfgs (F := F)) admH (pdatsH m ρ) lf.win lf.arr_whole c
      ((pdatsH m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    icases HO with ⟨%W, HO⟩; iexists W; isplitr; · ipureintro; exact fun _ _ => Or.inl ((hrec c).symm ▸ trivial)
    iexact HO
  hin c := by
    refine .trans ?_ (hin c)
    unfold Pipeline.ΦA
    iintro ⟨Hp, -, Hr⟩
    iframe
  hout c := by
    rw [Pipeline.ownSems0_none]
    refine (hout c).trans ?_
    unfold Pipeline.ΦA
    iintro ⟨Hr, Hp⟩
    iframe
    iempintro
  hexit c := by
    unfold Pipeline.Dat.owesAt Pipeline.owesWithin
    rw [howed c]
    have hjoin := Pipeline.unscopedBufs_of_arrays (p := p) (pcfgs (F := F)) admH (Ix := Unit) (Name := ℕ) (U := UR sig nD τ) (Lvl := ℕ)
      lf.win lf.arr_whole c (pdatsH m ρ) ((pdatsH m ρ p c).share_full (hq c))
      (fun b => W c b) (fun b => W' c b) ((pdatsH m ρ p c).arrAt · (cfgs p).N) (hF c) (hrest c)
    rw [Pipeline.unscopedBufs_held] at hjoin
    iintro ⟨Ha, HO, HY, Hrest⟩
    imodintro
    isplitl [Ha Hrest]
    · iapply hjoin; iframe
    isplitl [HY]; · iexact HY
    icases HO with ⟨%W, -, HO⟩; iexists W; iexact HO

abbrev regH0 := regH m ρ 0 launch0 (Wt1 m ρ) (Wt2 m ρ) (body_obligation0 (Vt1 m ρ)) (fun _ _ => rfl) (fun _ _ => rfl) (fun _ => rfl) (fun _ _ => rfl)
  (fun _ => .rfl) (fun _ => .rfl) (fun c w => (Wt2_arr m ρ c w).symm)
  fun c b hb => Wt2_of_ne m ρ c b fun w e => hb (Finset.mem_image.mpr ⟨w, Finset.mem_univ _, e⟩)
abbrev regH1 := regH m ρ 1 launch1 (Wt3 m ρ) (Wt4 m ρ) (body_obligation1 (Vt3 m ρ)) (fun _ _ => rfl) (fun _ _ => rfl) (fun _ => rfl) (fun _ _ => rfl)
  (hin1 (Vt3 m ρ)) (hout1 (Vt3 m ρ)) (fun c w => (Wt4_arr m ρ c w).symm)
  fun c b hb => Wt4_of_ne m ρ c b fun w e => hb (Finset.mem_image.mpr ⟨w, Finset.mem_univ _, e⟩)

abbrev segsH : List (Pipeline.Seg (pcfgs (F := F)) admH (pdatsH m ρ) () defs₀ 𝒱h Lh lvh) :=
  [ .host (hsegH hostOps0 hostOps0_sub hostOps0_fresh (Wt0 m ρ)),
    .region (regH0 m ρ),
    .host (hsegH hostOps1 hostOps1_sub hostOps1_fresh (Wt2 m ρ)),
    .region (regH1 m ρ) ]
theorem main_runH (c : Dev nD) : main (F := F) c = Pipeline.Seg.run (segsH m ρ) := (main_chain c).trans (by chain_rfl)

set_option backward.isDefEq.respectTransparency.types false in
/-- Every fair run ends, with the result buffer at what the second call's stores leave and every argument as launched. -/
theorem run_all : θ_run defs (onTc (τ := τ) (main (F := F))) ⟨m, fun _ => 0, ρ⟩ (fun r => ∀ c : Dev nD,
      r.2.mem ((c.tc : Thread nD τ).loc main_v45) = (dat1 (Vt3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) admH (pdatsH m ρ) () cellOf_inj emb₁ defs₀ 𝒱h Lh lvh m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ Rst c)) (Tₙ := Tlast m ρ)
    (hch := ⟨fun _ => .rfl, fun _ => .rfl, fun _ => .rfl, fun _ => .rfl, fun _ => sep_assoc'⟩)
    (hinit := by
      refine Pipeline.initEach Lh lvh fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = Wt4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt4 m ρ c) s')
      isplitl [Hh] <;> iassumption)
    (hQ := fun s h c =>
      have k (r : Ref sig .tc) hs hr := (h c _ (mem_ucH r hs)).trans (Wt4_kept m ρ c r hr)
      ⟨(h c _ (mem_ucH main_v45 (by decide))).trans (Wt4_arr m ρ c 11),
       k main_arg0 (by decide) (by decide), k main_arg1 (by decide) (by decide), k main_arg2 (by decide) (by decide), k main_arg3 (by decide) (by decide), k main_arg4 (by decide) (by decide),
       k main_arg5 (by decide) (by decide), k main_arg6 (by decide) (by decide), k main_arg7 (by decide) (by decide), k main_arg8 (by decide) (by decide), k main_arg9 (by decide) (by decide),
       k main_arg10 (by decide) (by decide), k main_arg11 (by decide) (by decide), k main_arg12 (by decide) (by decide), k main_arg13 (by decide) (by decide)⟩)

theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_all m ρ)

end Cert.KernelIdeal.Hand

end
-- ==== Proof.LibRowGather.lean ====
import Idealize.ShloMosaic.Lib.ValueIdx

noncomputable section

namespace Cert.LibRowGather

open Idealize.ShloMosaic Idealize.ShloMosaic.ValueIdx

variable {α : Type}

def clampRow (N : Nat) (hN : 0 < N) {w : Nat} (v : BitVec w) : Fin N :=
  ⟨min v.toInt.toNat (N - 1), by omega⟩

abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

-- The lookup at (p, k): the table at the clamped row number ids[p, 0] and column k.
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (p : Fin R) (k : Fin D) :
    Host.gather (rowDims N D R wf) x ids (ix2 p k) = x (ix2 (clampRow N hN (ids (ix2 p (0 : Fin 1)))) k) := by
  unfold Host.gather
  refine congrArg x (funext fun a => Fin.ext ?_)
  match a with
  | ⟨0, _⟩ =>
    show (rowDims N D R wf).start (ix2 p k) ids 0 = _
    unfold GatherDims.start
    rw [dif_pos (show (0 : Fin 2) ∈ (rowDims N D R wf).startIndexMap from List.mem_singleton.mpr rfl)]
    exact congrArg (fun y => min (ids y).toInt.toNat (N - 1)) (eq_ix2 _)
  | ⟨1, _⟩ =>
    show 0 + 0 + k.val = k.val
    omega

end Cert.LibRowGather

end
-- ==== Proof.Spec.lean ====
import Idealize.ShloMosaic.PureOps.Ideal
import Idealize.ShloMosaic.Lib.ValueIdx
import proofs.«414551_j48034914238531_3_alg».proof.Proof.LibRowGather

noncomputable section

namespace Cert.Spec

open Idealize.ShloMosaic Idealize.ShloMosaic.ValueIdx Cert.LibRowGather
open scoped BigOperators

abbrev NN : Nat := 100000
abbrev NE : Nat := 1600000

abbrev one : EReal := Ideal.ofBits .f32 0x3F800000#32
abbrev half : EReal := Ideal.ofBits .f32 0x3F000000#32
abbrev ca1 : EReal := Ideal.ofBits .f32 0x3E9D1BD0#32
abbrev cb1 : EReal := Ideal.ofBits .f32 0x3F317218#32
abbrev ca2 : EReal := Ideal.ofBits .f32 0x3F183370#32
abbrev cb2 : EReal := Ideal.ofBits .f32 0x3ECF991F#32

def wrapRow (v : BitVec 32) : Fin NN :=
  clampRow NN (by decide) (Scalar.select (IntOp.cmpi .slt v 0#32) (IntOp.addi v 100000#32) v)

def hits (dst : Fin NE → BitVec 32) (n : Fin NN) : Finset (Fin NE) :=
  Finset.univ.filter fun e => (dst e).toInt = (n.val : ℤ)

def deg (dst : Fin NE → BitVec 32) (n : Fin NN) : EReal := (∑ _e ∈ hits dst n, one) + one
def norm (dst : Fin NE → BitVec 32) (n : Fin NN) : EReal := Ideal.rsqrt (max (deg dst n) one)

def agg (T : Fin NN → Fin 128 → EReal) (src dst : Fin NE → BitVec 32) (n : Fin NN) (k : Fin 128) : EReal :=
  (∑ e ∈ hits dst n, T (wrapRow (src e)) k) + T n k

def lin (c1 c2 : EReal) (hs h0s : Fin 128 → EReal) (W1 W2 : Fin 128 → Fin 128 → EReal) (b : Fin 128 → EReal) (d : Fin 128) : EReal :=
  (((c1 * hs d + c2 * ∑ k, hs k * W1 k d) + c1 * h0s d) + c2 * ∑ k, h0s k * W2 k d) + b d

def layer (c1 c2 : EReal) (A X : Fin NN → Fin 128 → EReal) (nrm : Fin NN → EReal) (W1 W2 : Fin 128 → Fin 128 → EReal)
    (b : Fin 128 → EReal) (n : Fin NN) (d : Fin 128) : EReal :=
  max (lin c1 c2 (fun k => half * (A n k * nrm n)) (fun k => half * X n k) W1 W2 b d) 0

def members (gid : Fin NN → BitVec 32) (g : Fin 64) : Finset (Fin NN) :=
  Finset.univ.filter fun n => (gid n).toInt = (g.val : ℤ)

def readout (S : Fin 128 → EReal) (cnt : EReal) (D1 : Fin 128 → Fin 32 → EReal) (e1 : Fin 32 → EReal) (D2 : Fin 32 → EReal) (e2 : EReal) : EReal :=
  Ideal.logistic ((∑ j, max ((∑ k, Ideal.div (S k) (max cnt one) * D1 k j) + e1 j) 0 * D2 j) + e2)

end Cert.Spec

end
-- ==== Proof.Arr.lean ====
import proofs.«414551_j48034914238531_3_alg».proof.Proof.Spec

noncomputable section

namespace Cert.Arr

open Idealize.ShloMosaic Idealize.ShloMosaic.ValueIdx Cert.Spec
open scoped BigOperators

abbrev SNx128 : Shape := ⟨2, ![100000, 128]⟩
abbrev SNx1 : Shape := ⟨2, ![100000, 1]⟩
abbrev SN : Shape := ⟨1, ![100000]⟩
abbrev SE : Shape := ⟨1, ![1600000]⟩
abbrev SDxD : Shape := ⟨2, ![128, 128]⟩
abbrev S1xD : Shape := ⟨2, ![1, 128]⟩
abbrev SD : Shape := ⟨1, ![128]⟩
abbrev SDxH : Shape := ⟨2, ![128, 32]⟩
abbrev S1xH : Shape := ⟨2, ![1, 32]⟩
abbrev SH : Shape := ⟨1, ![32]⟩
abbrev SHx1 : Shape := ⟨2, ![32, 1]⟩
abbrev S1x1' : Shape := ⟨2, ![1, 1]⟩
abbrev S1' : Shape := ⟨1, ![1]⟩
abbrev SGx1 : Shape := ⟨2, ![64, 1]⟩

def words (v : SE.Idx → BitVec 32) (e : Fin NE) : BitVec 32 := v (ix1 e)

def NormArr (dst : SE.Idx → BitVec 32) : SNx1.Idx → EReal := fun i => norm (words dst) (i 0)

def PreArr (X : SNx128.Idx → EReal) (nrm : SNx1.Idx → EReal) : SNx128.Idx → EReal :=
  fun i => X i * nrm (ix2 (i 0) (0 : Fin 1))

def AggArr (T : SNx128.Idx → EReal) (src dst : SE.Idx → BitVec 32) : SNx128.Idx → EReal :=
  fun i => agg (fun n k => T (ix2 n k)) (words src) (words dst) (i 0) (i 1)

def G0 (A X : SNx128.Idx → EReal) (nrm : SNx1.Idx → EReal) (W1 W2 : SDxD.Idx → EReal) (b : S1xD.Idx → EReal) : SNx128.Idx → EReal :=
  fun i => layer ca1 cb1 (fun n k => A (ix2 n k)) (fun n k => X (ix2 n k)) (fun n => nrm (ix2 n (0 : Fin 1)))
    (fun k d => W1 (ix2 k d)) (fun k d => W2 (ix2 k d)) (fun d => b (ix2 (0 : Fin 1) d)) (i 0) (i 1) * nrm (ix2 (i 0) (0 : Fin 1))

def X2 (A X : SNx128.Idx → EReal) (nrm : SNx1.Idx → EReal) (W1 W2 : SDxD.Idx → EReal) (b : S1xD.Idx → EReal) (n : Fin NN) (d : Fin 128) : EReal :=
  layer ca2 cb2 (fun n k => A (ix2 n k)) (fun n k => X (ix2 n k)) (fun n => nrm (ix2 n (0 : Fin 1)))
    (fun k d => W1 (ix2 k d)) (fun k d => W2 (ix2 k d)) (fun d => b (ix2 (0 : Fin 1) d)) n d

def G1 (A X : SNx128.Idx → EReal) (nrm : SNx1.Idx → EReal) (gid : SNx1.Idx → BitVec 32) (W1 W2 : SDxD.Idx → EReal) (b : S1xD.Idx → EReal)
    (D1 : SDxH.Idx → EReal) (e1 : S1xH.Idx → EReal) (D2 : SHx1.Idx → EReal) (e2 : S1x1'.Idx → EReal) : SGx1.Idx → EReal :=
  fun i => readout (fun k => ∑ n ∈ members (fun n => gid (ix2 n (0 : Fin 1))) (i 0), X2 A X nrm W1 W2 b n k)
    (∑ _n ∈ members (fun n => gid (ix2 n (0 : Fin 1))) (i 0), one)
    (fun k j => D1 (ix2 k j)) (fun j => e1 (ix2 (0 : Fin 1) j)) (fun j => D2 (ix2 j (0 : Fin 1))) (e2 (ix2 (0 : Fin 1) (0 : Fin 1)))

def rowOf {n : Nat} {α : Type} (v : (⟨1, ![n]⟩ : Shape).Idx → α) : (⟨2, ![1, n]⟩ : Shape).Idx → α := fun i => v (ix1 (i 1))
def colOf {n : Nat} {α : Type} (v : (⟨1, ![n]⟩ : Shape).Idx → α) : (⟨2, ![n, 1]⟩ : Shape).Idx → α := fun i => v (ix1 (i 0))

def Net (X : SNx128.Idx → EReal) (src dst : SE.Idx → BitVec 32) (gid : SN.Idx → BitVec 32) (W11 W21 : SDxD.Idx → EReal) (b1 : SD.Idx → EReal)
    (W12 W22 : SDxD.Idx → EReal) (b2 : SD.Idx → EReal) (D1 : SDxH.Idx → EReal) (e1 : SH.Idx → EReal) (D2 : SHx1.Idx → EReal) (e2 : S1'.Idx → EReal) : SGx1.Idx → EReal :=
  G1 (AggArr (G0 (AggArr (PreArr X (NormArr dst)) src dst) X (NormArr dst) W11 W21 (rowOf b1)) src dst) X (NormArr dst) (colOf gid)
    W12 W22 (rowOf b2) D1 (rowOf e1) D2 (rowOf e2)

end Cert.Arr

end
-- ==== Proof.LibPlainMatmul.lean ====
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ => rfl
  | ⟨1, _⟩ => exact ((DotDims.plain M K N).lhsIdx_val_of_single (cl := (1 : Fin 2)) rfl (ix2 a b) _).trans hk

theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ => exact ((DotDims.plain M K N).rhsIdx_val_of_single (cr := (0 : Fin 2)) rfl (ix2 a b) _).trans hk
  | ⟨1, _⟩ => rfl

-- Entry (a, b) of a plain product added to zero is the sum over k of l(a, k) r(k, b).
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.Val.K0.lean ====
import proofs.«414551_j48034914238531_3_alg».proof.Proof.KI.R0
import proofs.«414551_j48034914238531_3_alg».proof.Proof.Arr
import proofs.«414551_j48034914238531_3_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

theorem dot0_eq : dot_S4000x128_S128x128_S4000x128_1_0_0_1_n_n = DotDims.plain 4000 128 128 := rfl

theorem bcastCol_apply {α : Type} (v0 : S4000x1.Idx → α) (r : Fin 4000) (d : Fin 128) :
    broadcastTo S4000x128 v0 broadcasts_S4000x1_S4000x128 (ix2 r d) = v0 (ix2 r 0) := by
  refine broadcastTo_apply v0 _ (ix2 r d) (ix2 r 0) fun a => ?_
  match a with
  | ⟨0, _⟩ => rfl
  | ⟨1, _⟩ => rfl

-- One entry of a block: the rectified affine form of the two half-scaled rows, times the degree factor.
theorem pay0_apply (v0 : Vec Ideal S4000x1 .f32) (v2 v6 : Vec Ideal S4000x128 .f32) (v13 v15 : Vec Ideal S128x128 .f32)
    (v30 : Vec Ideal S1x128 .f32) (r : Fin 4000) (d : Fin 128) :
    k0_pay1 (k0_pay2 v0 v2 v6 v13 v15 v30) (ix2 r d)
      = max (Cert.Spec.lin Cert.Spec.ca1 Cert.Spec.cb1 (fun k => Cert.Spec.half * (v2 (ix2 r k) * v0 (ix2 r 0)))
          (fun k => Cert.Spec.half * v6 (ix2 r k)) (fun k d => v13 (ix2 k d)) (fun k d => v15 (ix2 k d)) (fun d => v30 (ix2 0 d)) d) 0
        * v0 (ix2 r 0) := by
  unfold k0_pay1 k0_pay2
  simp only [truncf_apply, mulf_apply, addf_apply, maximumf_apply, broadcast_apply, bcastCol_apply, broadcastTo_1b_ab_apply, shapeCast_self, dot0_eq, Cert.LibPlainMatmul.matmul_zero_apply]
  unfold Cert.Spec.lin
  simp only [Ideal.ofBits_def, Ideal.ofBits_zero_f32]

variable (V : (c : Dev nD) → (b : Ref sig .tc) → Buf (Elt Ideal) ((c : Thread nD τ).loc b))

theorem zero_off : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

def rowOf (t : Fin cfg0.N) (p : Fin 4000) : Fin 100000 := ⟨t.val * 4000 + p.val, by have : t.val < 25 := t.isLt; have := p.isLt; omega⟩

-- Row p of a row window's block t is row 4000·t + p of its array.
theorem row_emb (W : Pipeline.Window sig grid0) (t : Fin cfg0.N) (y : (W.xblock (grid0.coords t)).Idx) (a : Fin W.shape.rank) (r : ℕ)
    (h : W.index t a = t.val) (hr : t.val * W.size a + y a = r) : ((W.rect t).emb y a : ℕ) = r := by
  rw [W.rect_emb_val, h, hr]

theorem blkAgg_apply (c : Dev nD) (t : Fin cfg0.N) (p : Fin 4000) (q : Fin 128) :
    (iblk0 V c 0 t : Vec Ideal S4000x128 .f32) (ix2 p q) = (V c main_v25 : Cert.Arr.SNx128.Idx → EReal) (ix2 (rowOf t p) q) :=
  congrArg (V c main_v25) (Shape.idx_ext₂ (row_emb win0_0 t (ix2 p q) 0 _ (idx_facts0 t).1 rfl) (win0_0.rect_emb_val_of_index_zero t 1 (idx_facts0 t).2.1 (ix2 p q)))

theorem blkFeat_apply (c : Dev nD) (t : Fin cfg0.N) (p : Fin 4000) (q : Fin 128) :
    (iblk0 V c 1 t : Vec Ideal S4000x128 .f32) (ix2 p q) = (V c main_arg0 : Cert.Arr.SNx128.Idx → EReal) (ix2 (rowOf t p) q) :=
  congrArg (V c main_arg0) (Shape.idx_ext₂ (row_emb win0_1 t (ix2 p q) 0 _ (idx_facts0 t).2.2.1 rfl) (win0_1.rect_emb_val_of_index_zero t 1 (idx_facts0 t).2.2.2.1 (ix2 p q)))

theorem blkNorm_apply (c : Dev nD) (t : Fin cfg0.N) (p : Fin 4000) (q : Fin 1) :
    (iblk0 V c 2 t : Vec Ideal S4000x1 .f32) (ix2 p q) = (V c main_v9 : Cert.Arr.SNx1.Idx → EReal) (ix2 (rowOf t p) q) :=
  congrArg (V c main_v9) (Shape.idx_ext₂ (row_emb win0_2 t (ix2 p q) 0 _ (idx_facts0 t).2.2.2.2.1 rfl) (win0_2.rect_emb_val_of_index_zero t 1 (idx_facts0 t).2.2.2.2.2.1 (ix2 p q)))

theorem blkW1_apply (c : Dev nD) (t : Fin cfg0.N) (p : Fin 128) (q : Fin 128) :
    (iblk0 V c 3 t : Vec Ideal S128x128 .f32) (ix2 p q) = (V c main_arg4 : Cert.Arr.SDxD.Idx → EReal) (ix2 p q) :=
  congrArg (V c main_arg4) (Shape.idx_ext₂ (win0_3.rect_emb_val_of_index_zero t 0 (idx_facts0 t).2.2.2.2.2.2.1 (ix2 p q)) (win0_3.rect_emb_val_of_index_zero t 1 (idx_facts0 t).2.2.2.2.2.2.2.1 (ix2 p q)))

theorem blkW2_apply (c : Dev nD) (t : Fin cfg0.N) (p : Fin 128) (q : Fin 128) :
    (iblk0 V c 4 t : Vec Ideal S128x128 .f32) (ix2 p q) = (V c main_arg5 : Cert.Arr.SDxD.Idx → EReal) (ix2 p q) :=
  congrArg (V c main_arg5) (Shape.idx_ext₂ (win0_4.rect_emb_val_of_index_zero t 0 (idx_facts0 t).2.2.2.2.2.2.2.2.1 (ix2 p q)) (win0_4.rect_emb_val_of_index_zero t 1 (idx_facts0 t).2.2.2.2.2.2.2.2.2.1 (ix2 p q)))

theorem blkBias_apply (c : Dev nD) (t : Fin cfg0.N) (p : Fin 1) (q : Fin 128) :
    (iblk0 V c 5 t : Vec Ideal S1x128 .f32) (ix2 p q) = (V c main_v26 : Cert.Arr.S1xD.Idx → EReal) (ix2 p q) :=
  congrArg (V c main_v26) (Shape.idx_ext₂ (win0_5.rect_emb_val_of_index_zero t 0 (idx_facts0 t).2.2.2.2.2.2.2.2.2.2.1 (ix2 p q)) (win0_5.rect_emb_val_of_index_zero t 1 (idx_facts0 t).2.2.2.2.2.2.2.2.2.2.2.1 (ix2 p q)))

abbrev G0at (c : Dev nD) : Cert.Arr.SNx128.Idx → EReal :=
  Cert.Arr.G0 (V c main_v25) (V c main_arg0) (V c main_v9) (V c main_arg4) (V c main_arg5) (V c main_v26)

-- Block t of the result is block t of the first layer's array.
theorem flushed0_eq (c : Dev nD) (t : Fin cfg0.N) :
    (dat0 (F := Ideal) V c).flushed 6 t = ((cfg0.win 6).blk t).view.read (Elt Ideal) (G0at V c) := by
  show (cfg0.win 6).cut (cfg0.grid.coords t) ((dat0 V c).after 6 t) = _
  rw [after0_6]
  unfold out0_6
  rw [View.canon_unit_zero zero_off]
  simp only [View.ld_unit_zero (S := S4000x128) zero_off, View.ld_unit_zero (S := S4000x1) zero_off,
    View.ld_unit_zero (S := S128x128) zero_off, View.ld_unit_zero (S := S1x128) zero_off]
  refine funext fun (j : S4000x128.Idx) => ?_
  obtain ⟨p, q, rfl⟩ : ∃ (p : Fin 4000) (q : Fin 128), j = ix2 p q := ⟨j 0, j 1, eq_ix2 j⟩
  show k0_pay1 (k0_pay2 (iblk0 V c 2 t) (iblk0 V c 0 t) (iblk0 V c 1 t) (iblk0 V c 3 t) (iblk0 V c 4 t) (iblk0 V c 5 t)) (ix2 p q)
    = G0at V c (((cfg0.win 6).blk t).view.emb (ix2 p q))
  rw [pay0_apply, show ((cfg0.win 6).blk t).view.emb (ix2 p q) = (ix2 (rowOf t p) q : Cert.Arr.SNx128.Idx) from
    Shape.idx_ext₂ (row_emb win0_6 t (ix2 p q) 0 _ (idx_facts0 t).2.2.2.2.2.2.2.2.2.2.2.2.1 rfl) (win0_6.rect_emb_val_of_index_zero t 1 (idx_facts0 t).2.2.2.2.2.2.2.2.2.2.2.2.2 (ix2 p q))]
  simp only [blkAgg_apply, blkFeat_apply, blkNorm_apply, blkW1_apply, blkW2_apply, blkBias_apply]
  rfl

-- Row r lies in block r / 4000.
theorem cover0 (i : Cert.Arr.SNx128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 4000 := ⟨⟨(i 0).val / 4000, by show _ < 25; omega⟩, rfl⟩
  obtain ⟨-, -, -, -, -, -, -, -, -, -, -, -, e0, e1⟩ := idx_facts0 t
  refine ⟨t, flush0_6 t, ?_⟩
  show i ∈ ((View.whole main_v27).slice (win0_6.rect t)).set
  rw [View.set_slice_whole, Rect.mem_set_unit]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

theorem arr0 (c : Dev nD) :
    ((Cert.KernelIdeal.Hand.dat0 (F := Ideal) V c).arrAt 6 cfg0.N : Cert.Arr.SNx128.Idx → EReal)
      = Cert.Arr.G0 (V c main_v25) (V c main_arg0) (V c main_v9) (V c main_arg4) (V c main_arg5) (V c main_v26) :=
  (dat0 (F := Ideal) V c).arrAt_eq_of_cover 6 (G0at V c) (fun t _ => flushed0_eq V c t) cover0

end Cert.KernelIdeal.Val

end
-- ==== Proof.LibKeepdims.lean ====
import Idealize.ShloMosaic.Lib.Pipeline.Value
import Idealize.ShloMosaic.Lib.ValueIdx

namespace Cert.LibKeepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Val.K1a.lean ====
import proofs.«414551_j48034914238531_3_alg».proof.Proof.Gen.KernelIdeal.Skeleton
import proofs.«414551_j48034914238531_3_alg».proof.Proof.Arr
import proofs.«414551_j48034914238531_3_alg».proof.Proof.LibPlainMatmul
import proofs.«414551_j48034914238531_3_alg».proof.Proof.LibKeepdims
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.Val

open Idealize.ShloMosaic Idealize.ShloMosaic.ValueIdx Cert.KernelIdeal Cert.KernelIdeal.Gen Cert.LibKeepdims

-- Comparing a word with the word of g < 64 decides whether its signed value is g.
theorem onehot_word (w : BitVec 32) (g : Fin 64) :
    FloatOps.sitofp (F := Ideal) .f32 ((IntOp.cmpi .eq w (BitVec.ofNat 32 g.val)).setWidth 32) = if w.toInt = (g.val : ℤ) then 1 else 0 := by
  have hg : (BitVec.ofNat 32 g.val).toInt = (g.val : ℤ) := by
    have := g.isLt
    rw [BitVec.toInt_ofNat', Int.bmod_def]
    norm_num
    omega
  show (((((IntOp.cmpi .eq w (BitVec.ofNat 32 g.val)).setWidth 32).toInt : ℤ) : ℝ) : EReal) = _
  by_cases h : w = BitVec.ofNat 32 g.val
  · subst h
    rw [if_pos hg]
    simp [IntOp.cmpi]
  · have hne : ¬ w.toInt = (g.val : ℤ) := fun e => h (BitVec.eq_of_toInt_eq (e.trans hg.symm))
    have hb : (w == BitVec.ofNat 32 g.val) = false := by simpa using h
    rw [if_neg hne]
    simp [IntOp.cmpi, hb]

-- A product contracting the row axis of both operands: the contraction index is the row, the free axes are the columns.
theorem matmul_tn_apply {K M N : ℕ} {φ₁ φ₂ : FTy} (D : DotDims ⟨2, ![K, M]⟩ ⟨2, ![K, N]⟩ ⟨2, ![M, N]⟩) (wf)
    (hD : D = ⟨[0], [0], [1], [1], [], [], wf⟩) (prec : Option ContractPrecision)
    (l : FVec Ideal ⟨2, ![K, M]⟩ φ₁) (x : FVec Ideal ⟨2, ![K, N]⟩ φ₂) (g : Fin M) (d : Fin N) :
    matmul D prec l x (constant (F := Ideal) ⟨2, ![M, N]⟩ .f32 0x00000000#32) (ix2 g d) = ∑ r : Fin K, l (ix2 r g) * x (ix2 r d) := by
  subst hD
  simp only [matmul]
  rw [Ideal.matmul_constant_zero_apply, ← Equiv.sum_comp (contrEquiv1 _ K rfl rfl).symm]
  refine Finset.sum_congr rfl fun r _ => ?_
  have hk := contrEquiv1_symm_val (⟨[0], [0], [1], [1], [], [], wf⟩ : DotDims ⟨2, ![K, M]⟩ ⟨2, ![K, N]⟩ ⟨2, ![M, N]⟩) K rfl rfl r
  congr 2 <;> refine funext fun a => Fin.ext ?_ <;> match a with
    | ⟨0, _⟩ => first | exact (DotDims.lhsIdx_val_of_single _ (cl := (0 : Fin 2)) rfl _ _).trans hk | exact (DotDims.rhsIdx_val_of_single _ (cr := (0 : Fin 2)) rfl _ _).trans hk
    | ⟨1, _⟩ => rfl

theorem sum_onehot (c : Fin 4000 → Prop) [DecidablePred c] (t : Fin 4000 → EReal) :
    ∑ r : Fin 4000, (if c r then (1 : EReal) else 0) * t r = ∑ r ∈ Finset.univ.filter c, t r := by
  rw [Finset.sum_filter]
  exact Finset.sum_congr rfl fun r _ => by rw [ite_mul, one_mul, zero_mul]

theorem dotA : dot_S4000x128_S128x128_S4000x128_1_0_0_1_n_n = DotDims.plain 4000 128 128 := rfl
theorem dotB : dot_S64x128_S128x32_S64x32_1_0_0_1_n_n = DotDims.plain 64 128 32 := rfl
theorem dotC : dot_S64x32_S32x1_S64x1_1_0_0_1_n_n = DotDims.plain 64 32 1 := rfl

theorem pay1_apply (v39 : Vec Ideal S4000x1 .i32) (r : Fin 4000) (g : Fin 64) :
    k1_pay1 (F := Ideal) v39 (ix2 r g) = if (v39 (ix2 r 0)).toInt = (g.val : ℤ) then (1 : EReal) else 0 := by
  unfold Gen.k1_pay1
  simp only [truncf_apply, sitofp_apply, extui_apply]
  show FloatOps.sitofp (F := Ideal) .f32 ((IntOp.cmpi .eq (broadcastTo S4000x64 (shapeCast S4000x1 v39 shapeCasts_S4000x1_S4000x1) broadcasts_S4000x1_S4000x64 (ix2 r g)) (iota .tc S4000x64 32 [1] iota_S4000x64_d1_w32 (ix2 r g))).setWidth 32) = _
  rw [broadcastTo_a1_ab_apply, shapeCast_self, iota_single_apply]
  exact onehot_word _ g

variable (v3 : Vec Ideal S4000x1 .f32) (v5 v9 : Vec Ideal S4000x128 .f32) (v16 v18 : Vec Ideal S128x128 .f32) (v33 : Vec Ideal S1x128 .f32)

def tileX2 (r : Fin 4000) (d : Fin 128) : EReal :=
  max (Cert.Spec.lin Cert.Spec.ca2 Cert.Spec.cb2 (fun k => Cert.Spec.half * (v5 (ix2 r k) * v3 (ix2 r 0))) (fun k => Cert.Spec.half * v9 (ix2 r k)) (fun k d => v16 (ix2 k d)) (fun k d => v18 (ix2 k d)) (fun d => v33 (ix2 0 d)) d) 0

theorem tile_apply (r : Fin 4000) (d : Fin 128) :
    max (k1_pay7 (F := Ideal) v3 v5 v9 v16 v18 (ix2 r d) + k1_pay8 (F := Ideal) v33 (ix2 r d)) (0 : EReal) = tileX2 v3 v5 v9 v16 v18 v33 r d := by
  unfold Gen.k1_pay7 Gen.k1_pay8
  simp only [addf_apply, mulf_apply, broadcast_apply, dotA, Cert.LibPlainMatmul.matmul_zero_apply, truncf_apply, shapeCast_self, broadcastTo_a1_ab_apply, broadcastTo_1b_ab_apply]
  rfl

theorem pay2_apply (v39 : Vec Ideal S4000x1 .i32) (v51 : Vec Ideal S64x128 .f32) (g : Fin 64) (d : Fin 128) :
    k1_pay2 (k1_pay7 v3 v5 v9 v16 v18) (k1_pay8 v33) v39 v51 (ix2 g d)
      = v51 (ix2 g d) + ∑ r ∈ Finset.univ.filter (fun r : Fin 4000 => (v39 (ix2 r 0)).toInt = (g.val : ℤ)), tileX2 v3 v5 v9 v16 v18 v33 r d := by
  unfold Gen.k1_pay2
  simp only [shapeCast_self, addf_apply, matmul_tn_apply dot_S4000x64_S4000x128_S64x128_0_0_1_1_n_n _ rfl, truncf_apply, maximumf_apply, broadcast_apply, pay1_apply]
  rw [← sum_onehot]
  refine congrArg (v51 (ix2 g d) + ·) (Finset.sum_congr rfl fun r _ => ?_)
  rw [← tile_apply]
  exact congrArg (_ * max _ ·) Ideal.ofBits_zero_f32

theorem pay3_apply (v39 : Vec Ideal S4000x1 .i32) (v56 : Vec Ideal S64x1 .f32) (g : Fin 64) :
    k1_pay3 v39 v56 (ix2 g 0) = v56 (ix2 g 0) + ∑ _r ∈ Finset.univ.filter (fun r : Fin 4000 => (v39 (ix2 r 0)).toInt = (g.val : ℤ)), Cert.Spec.one := by
  unfold Gen.k1_pay3
  simp only [shapeCast_self, addf_apply, matmul_tn_apply dot_S4000x64_S4000x1_S64x1_0_0_1_1_n_n _ rfl, broadcast_apply, pay1_apply]
  rw [← sum_onehot]
  exact congrArg (v56 (ix2 g 0) + ·) (Finset.sum_congr rfl fun r _ => congrArg (_ * ·) (Ideal.ofBits_one_bf16.trans Ideal.ofBits_one_f32.symm))

theorem pay4_apply (v64 : Vec Ideal S64x128 .f32) (v65 : Vec Ideal S64x1 .f32) (v71 : Vec Ideal S128x32 .f32) (v74 : Vec Ideal S1x32 .f32) (v81 : Vec Ideal S32x1 .f32) (v84 : Vec Ideal S1x1 .f32) (g : Fin 64) :
    k1_pay4 v64 v65 v71 v74 v81 v84 (ix2 g 0) = Cert.Spec.readout (fun k => v64 (ix2 g k)) (v65 (ix2 g 0)) (fun k j => v71 (ix2 k j)) (fun j => v74 (ix2 0 j)) (fun j => v81 (ix2 j 0)) (v84 (ix2 0 0)) := by
  unfold Gen.k1_pay4
  show FloatOps.logistic (F := Ideal) _ = _
  rw [Ideal.logistic_def]
  simp only [addf_apply, dotB, dotC, Cert.LibPlainMatmul.matmul_zero_apply, truncf_apply, maximumf_apply, broadcast_apply, divf_apply, shapeCast_self, broadcastTo_1b_ab_apply, broadcastTo_a1_ab_apply]
  unfold Cert.Spec.readout
  refine congrArg Ideal.logistic (congrArg (· + v84 (ix2 0 0)) (Finset.sum_congr rfl fun j _ => ?_))
  exact congrArg (max _ · * _) Ideal.ofBits_zero_f32

theorem pay5_apply (i : S64x128.Idx) : k1_pay5 (F := Ideal) i = 0 := by
  unfold Gen.k1_pay5
  simp only [shapeCast_self, broadcast_apply]
  exact Ideal.ofBits_zero_f32

theorem pay6_apply (i : S64x1.Idx) : k1_pay6 (F := Ideal) i = 0 := by
  unfold Gen.k1_pay6
  simp only [shapeCast_self, broadcast_apply]
  exact Ideal.ofBits_zero_f32

end Cert.KernelIdeal.Val

end
-- ==== Proof.Val.K1b.lean ====
import proofs.«414551_j48034914238531_3_alg».proof.Proof.KI.R1Dat
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

theorem hz2 : (![0, 0] : Fin 2 → Nat) = fun _ => 0 := funext fun a => by fin_cases a <;> rfl

variable (V : (c : Dev nD) → (b : Ref sig .tc) → Buf (Elt F) ((c : Thread nD τ).loc b)) (c : Dev nD)

set_option maxHeartbeats 4000000 in
-- Every store and load of the body is of a whole buffer: the stores a case meets reduce to the last one's payload,
-- and a load taken after a store reads that store's payload.
theorem canonAt (t : Fin cfg1.N) :
    (∀ h0, View.canon (runA V c t h0).1 = k1_pay2 (k1_pay7 (bN V c t) (bA V c t) (bX V c t) (bW1 V c t) (bW2 V c t)) (k1_pay8 (bB V c t)) (bG V c t) k1_pay5 ∧ View.canon (runA V c t h0).2.1 = k1_pay3 (bG V c t) k1_pay6)
    ∧ (∀ h0 h1 s, View.canon (runB V c t h0 h1 s).1 = k1_pay2 (k1_pay7 (bN V c t) (bA V c t) (bX V c t) (bW1 V c t) (bW2 V c t)) (k1_pay8 (bB V c t)) (bG V c t) s.1 ∧ View.canon (runB V c t h0 h1 s).2.1 = k1_pay3 (bG V c t) s.2)
    ∧ (∀ h0 h1 s, View.canon (runC V c t h0 h1 s).1 = k1_pay4 (k1_pay2 (k1_pay7 (bN V c t) (bA V c t) (bX V c t) (bW1 V c t) (bW2 V c t)) (k1_pay8 (bB V c t)) (bG V c t) s.1) (k1_pay3 (bG V c t) s.2) (bD1 V c t) (bE1 V c t) (bD2 V c t) (bE2 V c t)
      ∧ View.canon (runC V c t h0 h1 s).2.1 = k1_pay2 (k1_pay7 (bN V c t) (bA V c t) (bX V c t) (bW1 V c t) (bW2 V c t)) (k1_pay8 (bB V c t)) (bG V c t) s.1 ∧ View.canon (runC V c t h0 h1 s).2.2.1 = k1_pay3 (bG V c t) s.2) := by
  refine ⟨fun h0 => ⟨?_, ?_⟩, fun h0 h1 s => ⟨?_, ?_⟩, fun h0 h1 s => ⟨?_, ?_, ?_⟩⟩ <;>
    (first | unfold runA kernelRun1_A | unfold runB kernelRun1_B | unfold runC kernelRun1_C) <;> dsimp only <;> sl_unfold_words <;>
    simp only [View.canon_cons_unit_zero (S := S64x128) hz2, View.canon_cons_unit_zero (S := S64x1) hz2, View.readCov_unit_zero (S := S64x128) _ hz2, View.readCov_unit_zero (S := S64x1) _ hz2, View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, (Memref.isWhole_whole cc1_scratch0).read_unread, (Memref.isWhole_whole cc1_scratch1).read_unread, View.ld_unit_zero (S := S4000x128) hz2, View.ld_unit_zero (S := S4000x1) hz2, View.ld_unit_zero (S := S128x128) hz2, View.ld_unit_zero (S := S1x128) hz2, View.ld_unit_zero (S := S128x32) hz2, View.ld_unit_zero (S := S1x32) hz2, View.ld_unit_zero (S := S32x1) hz2, View.ld_unit_zero (S := S1x1) hz2, View.ld_unit_zero (S := S64x128) hz2, View.ld_unit_zero (S := S64x1) hz2]

-- The accumulators after the first point: its contribution over the cleared values.
theorem acc_first (hn : 0 < cfg1.N) :
    (outsAt1 V c 0 hn).2 = (k1_pay2 (k1_pay7 (bN V c ⟨0, hn⟩) (bA V c ⟨0, hn⟩) (bX V c ⟨0, hn⟩) (bW1 V c ⟨0, hn⟩) (bW2 V c ⟨0, hn⟩)) (k1_pay8 (bB V c ⟨0, hn⟩)) (bG V c ⟨0, hn⟩) k1_pay5, k1_pay3 (bG V c ⟨0, hn⟩) k1_pay6) := by
  rw [show outsAt1 V c 0 hn = _ from outsAt1_A V c ⟨0, hn⟩ rfl]
  exact congrArg₂ Prod.mk
    ((View.read_writes_eq_canon VS1_0 VS1_0.junk _ (coverA0 V c ⟨0, hn⟩ rfl)).trans ((canonAt V c ⟨0, hn⟩).1 rfl).1)
    ((View.read_writes_eq_canon VS1_1 VS1_1.junk _ (coverA1 V c ⟨0, hn⟩ rfl)).trans ((canonAt V c ⟨0, hn⟩).1 rfl).2)

-- After a later point: its contribution over what the point before left, whether or not it is the last.
theorem acc_next (n : ℕ) (hn : n + 1 < cfg1.N) :
    (outsAt1 V c (n + 1) hn).2 = (k1_pay2 (k1_pay7 (bN V c ⟨n + 1, hn⟩) (bA V c ⟨n + 1, hn⟩) (bX V c ⟨n + 1, hn⟩) (bW1 V c ⟨n + 1, hn⟩) (bW2 V c ⟨n + 1, hn⟩)) (k1_pay8 (bB V c ⟨n + 1, hn⟩)) (bG V c ⟨n + 1, hn⟩) (outsAt1 V c n (Nat.lt_of_succ_lt hn)).2.1, k1_pay3 (bG V c ⟨n + 1, hn⟩) (outsAt1 V c n (Nat.lt_of_succ_lt hn)).2.2) := by
  by_cases h1 : n + 1 = 24
  · rw [show outsAt1 V c (n + 1) hn = _ from outsAt1_C V c ⟨n + 1, hn⟩ n.succ_ne_zero h1]
    exact congrArg₂ Prod.mk
      ((View.read_writes_eq_canon VS1_0 VS1_0.junk _ (coverC0 V c ⟨n + 1, hn⟩ n.succ_ne_zero h1 (outsAt1 V c n (Nat.lt_of_succ_lt hn)).2)).trans ((canonAt V c ⟨n + 1, hn⟩).2.2 n.succ_ne_zero h1 (outsAt1 V c n (Nat.lt_of_succ_lt hn)).2).2.1)
      ((View.read_writes_eq_canon VS1_1 VS1_1.junk _ (coverC1 V c ⟨n + 1, hn⟩ n.succ_ne_zero h1 (outsAt1 V c n (Nat.lt_of_succ_lt hn)).2)).trans ((canonAt V c ⟨n + 1, hn⟩).2.2 n.succ_ne_zero h1 (outsAt1 V c n (Nat.lt_of_succ_lt hn)).2).2.2)
  · rw [show outsAt1 V c (n + 1) hn = _ from outsAt1_B V c ⟨n + 1, hn⟩ n.succ_ne_zero h1]
    exact congrArg₂ Prod.mk
      ((View.read_writes_eq_canon VS1_0 VS1_0.junk _ (coverB0 V c ⟨n + 1, hn⟩ n.succ_ne_zero h1 (outsAt1 V c n (Nat.lt_of_succ_lt hn)).2)).trans ((canonAt V c ⟨n + 1, hn⟩).2.1 n.succ_ne_zero h1 (outsAt1 V c n (Nat.lt_of_succ_lt hn)).2).1)
      ((View.read_writes_eq_canon VS1_1 VS1_1.junk _ (coverB1 V c ⟨n + 1, hn⟩ n.succ_ne_zero h1 (outsAt1 V c n (Nat.lt_of_succ_lt hn)).2)).trans ((canonAt V c ⟨n + 1, hn⟩).2.1 n.succ_ne_zero h1 (outsAt1 V c n (Nat.lt_of_succ_lt hn)).2).2)

-- The output block at the last point: the read-out of the two accumulators as that point has just updated them.
theorem out_at_last (n : ℕ) (hn : n + 1 < cfg1.N) (h1 : n + 1 = 24) :
    (outsAt1 V c (n + 1) hn).1 = k1_pay4 (k1_pay2 (k1_pay7 (bN V c ⟨n + 1, hn⟩) (bA V c ⟨n + 1, hn⟩) (bX V c ⟨n + 1, hn⟩) (bW1 V c ⟨n + 1, hn⟩) (bW2 V c ⟨n + 1, hn⟩)) (k1_pay8 (bB V c ⟨n + 1, hn⟩)) (bG V c ⟨n + 1, hn⟩) (outsAt1 V c n (Nat.lt_of_succ_lt hn)).2.1) (k1_pay3 (bG V c ⟨n + 1, hn⟩) (outsAt1 V c n (Nat.lt_of_succ_lt hn)).2.2) (bD1 V c ⟨n + 1, hn⟩) (bE1 V c ⟨n + 1, hn⟩) (bD2 V c ⟨n + 1, hn⟩) (bE2 V c ⟨n + 1, hn⟩) := by
  rw [show outsAt1 V c (n + 1) hn = _ from outsAt1_C V c ⟨n + 1, hn⟩ n.succ_ne_zero h1]
  exact (View.read_writes_eq_canon VO1_11 VO1_11.junk _ (coverCo V c ⟨n + 1, hn⟩ n.succ_ne_zero h1 (outsAt1 V c n (Nat.lt_of_succ_lt hn)).2)).trans ((canonAt V c ⟨n + 1, hn⟩).2.2 n.succ_ne_zero h1 (outsAt1 V c n (Nat.lt_of_succ_lt hn)).2).1

end Cert.KernelIdeal.Val

end
-- ==== Proof.LibTileSum.lean ====
import Mathlib.Algebra.BigOperators.Fin
import Mathlib.Logic.Equiv.Fin.Basic

namespace Cert.LibTileSum

def pos {a b : ℕ} (i : Fin a) (r : Fin b) : Fin (a * b) :=
  ⟨b * i.val + r.val, by
    have hi := i.isLt; have hr := r.isLt
    have h1 : b * i.val + b ≤ b * a := by
      have : b * (i.val + 1) ≤ b * a := Nat.mul_le_mul_left _ hi
      rwa [Nat.mul_succ] at this
    rw [Nat.mul_comm a b]; omega⟩

theorem pos_val {a b : ℕ} (i : Fin a) (r : Fin b) : (pos i r).val = b * i.val + r.val := rfl

theorem sum_tiles {M : Type*} [AddCommMonoid M] {a b : ℕ} (f : Fin (a * b) → M) :
    ∑ i : Fin a, ∑ r : Fin b, f (pos i r) = ∑ n : Fin (a * b), f n := by
  rw [← Finset.sum_product' (f := fun i r => f (pos i r)), Finset.univ_product_univ]
  refine Fintype.sum_equiv (finProdFinEquiv (m := a) (n := b)) _ _ fun p => ?_
  congr 1
  apply Fin.ext
  simp [pos_val, finProdFinEquiv, Nat.add_comm]

end Cert.LibTileSum
-- ==== Proof.Val.K1c.lean ====
import proofs.«414551_j48034914238531_3_alg».proof.Proof.KI.R1Dat
import proofs.«414551_j48034914238531_3_alg».proof.Proof.Val.K1a
import proofs.«414551_j48034914238531_3_alg».proof.Proof.Val.K1b
import proofs.«414551_j48034914238531_3_alg».proof.Proof.Arr
import proofs.«414551_j48034914238531_3_alg».proof.Proof.LibTileSum
import Idealize.ShloMosaic.Lib.Pipeline.Value
import Idealize.ShloMosaic.Lib.ValueIdx
import Mathlib.Algebra.BigOperators.Group.Finset.Basic
import Mathlib.Algebra.BigOperators.Fin

set_option maxRecDepth 16384

noncomputable section

open scoped BigOperators

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

abbrev aA (c : Dev nD) : Vec Ideal S100000x128 .f32 := V c main_v40
abbrev aX (c : Dev nD) : Vec Ideal S100000x128 .f32 := V c main_arg0
abbrev aN (c : Dev nD) : Vec Ideal S100000x1 .f32 := V c main_v9
abbrev aG (c : Dev nD) : Vec Ideal S100000x1 .i32 := V c main_v41
abbrev aW1 (c : Dev nD) : Vec Ideal S128x128 .f32 := V c main_arg7
abbrev aW2 (c : Dev nD) : Vec Ideal S128x128 .f32 := V c main_arg8
abbrev aB (c : Dev nD) : Vec Ideal S1x128 .f32 := V c main_v42
abbrev aD1 (c : Dev nD) : Vec Ideal S128x32 .f32 := V c main_arg10
abbrev aE1 (c : Dev nD) : Vec Ideal S1x32 .f32 := V c main_v43
abbrev aD2 (c : Dev nD) : Vec Ideal S32x1 .f32 := V c main_arg12
abbrev aE2 (c : Dev nD) : Vec Ideal S1x1 .f32 := V c main_v44

def rowAt (s : ℕ) (r : Fin 4000) : Fin 100000 := ⟨(4000 * s + r.val) % 100000, Nat.mod_lt _ (by decide)⟩

theorem rowAt_val (s : ℕ) (hs : s < 25) (r : Fin 4000) : (rowAt s r).val = 4000 * s + r.val :=
  Nat.mod_eq_of_lt (by have := r.isLt; omega)

theorem idx1 : ∀ (w : Fin cfg1.W), w.val ≤ 10 → ∀ (t : Fin cfg1.N) (a : Fin (cfg1.win w).shape.rank),
    (cfg1.win w).index t a = if w.val ≤ 3 ∧ a.val = 0 then t.val else 0 := by decide +kernel

-- Entry (r, k) of tile t's block, t blocks of 4000 rows down and no columns across, is entry (4000 t + r, k).
theorem emb_tile {D : ℕ} (t : Fin cfg1.N) (r : Fin 4000) (k : Fin D) {i0 i1 : ℕ} (h0 : i0 = t.val) (h1 : i1 = 0)
    (j : (⟨2, ![100000, D]⟩ : Shape).Idx) (hj0 : (j 0).val = i0 * 4000 + 1 * r.val) (hj1 : (j 1).val = i1 * D + 1 * k.val) :
    j = ix2 (rowAt t.val r) k := by
  have ht : t.val < 25 := N1_eq ▸ t.isLt
  subst h0 h1
  refine (eq_ix2 j).trans (congrArg₂ ix2 (Fin.ext ?_) (Fin.ext ?_))
  · rw [hj0, rowAt_val _ ht]; omega
  · rw [hj1]; omega

theorem bA_apply (c : Dev nD) (t : Fin cfg1.N) (r : Fin 4000) (k : Fin 128) :
    bA V c t (ix2 r k) = aA V c (ix2 (rowAt t.val r) k) := by
  unfold bA aA iblk1
  rw [View.read_apply]
  exact congrArg (V c main_v40) (emb_tile t r k (idx1 0 (by decide) t 0) (idx1 0 (by decide) t 1) _ rfl rfl)

theorem bX_apply (c : Dev nD) (t : Fin cfg1.N) (r : Fin 4000) (k : Fin 128) :
    bX V c t (ix2 r k) = aX V c (ix2 (rowAt t.val r) k) := by
  unfold bX aX iblk1
  rw [View.read_apply]
  exact congrArg (V c main_arg0) (emb_tile t r k (idx1 1 (by decide) t 0) (idx1 1 (by decide) t 1) _ rfl rfl)

theorem bN_apply (c : Dev nD) (t : Fin cfg1.N) (r : Fin 4000) :
    bN V c t (ix2 r (0 : Fin 1)) = aN V c (ix2 (rowAt t.val r) (0 : Fin 1)) := by
  unfold bN aN iblk1
  rw [View.read_apply]
  exact congrArg (V c main_v9) (emb_tile t r 0 (idx1 2 (by decide) t 0) (idx1 2 (by decide) t 1) _ rfl rfl)

theorem bG_apply (c : Dev nD) (t : Fin cfg1.N) (r : Fin 4000) :
    bG V c t (ix2 r (0 : Fin 1)) = aG V c (ix2 (rowAt t.val r) (0 : Fin 1)) := by
  unfold bG aG iblk1
  rw [View.read_apply]
  exact congrArg (V c main_v41) (emb_tile t r 0 (idx1 3 (by decide) t 0) (idx1 3 (by decide) t 1) _ rfl rfl)

-- A block at offset zero whose size is the array's own is the whole array.
theorem whole_of_zero (b : Ref sig .tc) {idx : Fin b.ty.shape.rank → ℕ} (h : ∀ a, idx a = 0)
    (inb : ∀ a, idx a * b.ty.shape.size a + b.ty.shape.size a ≤ b.ty.shape.size a) (f : b.ty.Contents (Elt Ideal)) :
    ((Memref.whole b).access (Rect.unit (fun a => idx a * b.ty.shape.size a) b.ty.shape.size inb) : View sig .tc _ _ _).read (Elt Ideal) f = f :=
  Memref.read_access_unit_zero (Elt Ideal) b (funext fun a => by rw [h a, Nat.zero_mul]) inb f

theorem bW1_eq (c : Dev nD) (t : Fin cfg1.N) : bW1 V c t = aW1 V c := whole_of_zero main_arg7 (idx1 4 (by decide) t) _ _
theorem bW2_eq (c : Dev nD) (t : Fin cfg1.N) : bW2 V c t = aW2 V c := whole_of_zero main_arg8 (idx1 5 (by decide) t) _ _
theorem bB_eq (c : Dev nD) (t : Fin cfg1.N) : bB V c t = aB V c := whole_of_zero main_v42 (idx1 6 (by decide) t) _ _
theorem bD1_eq (c : Dev nD) (t : Fin cfg1.N) : bD1 V c t = aD1 V c := whole_of_zero main_arg10 (idx1 7 (by decide) t) _ _
theorem bE1_eq (c : Dev nD) (t : Fin cfg1.N) : bE1 V c t = aE1 V c := whole_of_zero main_v43 (idx1 8 (by decide) t) _ _
theorem bD2_eq (c : Dev nD) (t : Fin cfg1.N) : bD2 V c t = aD2 V c := whole_of_zero main_arg12 (idx1 9 (by decide) t) _ _
theorem bE2_eq (c : Dev nD) (t : Fin cfg1.N) : bE2 V c t = aE2 V c := whole_of_zero main_v44 (idx1 10 (by decide) t) _ _

def tileRows (c : Dev nD) (g : Fin 64) (s : ℕ) : Finset (Fin 4000) :=
  Finset.univ.filter fun r : Fin 4000 => (aG V c (ix2 (rowAt s r) (0 : Fin 1))).toInt = (g.val : ℤ)

def tileSum (c : Dev nD) (g : Fin 64) (d : Fin 128) (s : ℕ) : EReal :=
  ∑ r ∈ tileRows V c g s, Cert.Arr.X2 (aA V c) (aX V c) (aN V c) (aW1 V c) (aW2 V c) (aB V c) (rowAt s r) d
def tileCnt (c : Dev nD) (g : Fin 64) (s : ℕ) : EReal := ∑ _r ∈ tileRows V c g s, Cert.Spec.one

theorem tileRows_eq (c : Dev nD) (t : Fin cfg1.N) (g : Fin 64) :
    (Finset.univ.filter fun r : Fin 4000 => (bG V c t (ix2 r 0)).toInt = (g.val : ℤ)) = tileRows V c g t.val :=
  Finset.filter_congr fun r _ => by rw [bG_apply]

-- The tile's rectified rows, computed from the blocks, are the second layer's rows of the whole arrays.
theorem tile_sum_eq (c : Dev nD) (t : Fin cfg1.N) (g : Fin 64) (d : Fin 128) :
    ∑ r ∈ Finset.univ.filter (fun r : Fin 4000 => (bG V c t (ix2 r 0)).toInt = (g.val : ℤ)),
      tileX2 (bN V c t) (bA V c t) (bX V c t) (bW1 V c t) (bW2 V c t) (bB V c t) r d = tileSum V c g d t.val := by
  rw [tileRows_eq]
  unfold tileSum
  refine Finset.sum_congr rfl fun r _ => ?_
  unfold tileX2 Cert.Arr.X2 Cert.Spec.layer
  rw [bW1_eq, bW2_eq, bB_eq]
  simp only [bA_apply, bX_apply, bN_apply]

theorem tile_cnt_eq (c : Dev nD) (t : Fin cfg1.N) (g : Fin 64) :
    ∑ _r ∈ Finset.univ.filter (fun r : Fin 4000 => (bG V c t (ix2 r 0)).toInt = (g.val : ℤ)), Cert.Spec.one = tileCnt V c g t.val := by
  rw [tileRows_eq]; rfl

-- A sum taken tile by tile over 25 tiles of 4000 rows is the sum over all 100000 rows.
theorem sum_all_tiles (P : Fin 100000 → Prop) [DecidablePred P] (f : Fin 100000 → EReal) :
    ∑ s ∈ Finset.range 25, ∑ r ∈ Finset.univ.filter (fun r : Fin 4000 => P (rowAt s r)), f (rowAt s r)
      = ∑ n ∈ Finset.univ.filter P, f n := by
  rw [Finset.sum_range, Finset.sum_filter]
  refine (Finset.sum_congr rfl fun s _ => ?_).trans
    (Cert.LibTileSum.sum_tiles (a := 25) (b := 4000) fun n : Fin (25 * 4000) => if P n then f n else 0)
  rw [Finset.sum_filter]
  exact Finset.sum_congr rfl fun r _ => by
    rw [show rowAt s.val r = (Cert.LibTileSum.pos s r : Fin (25 * 4000)) from Fin.ext (rowAt_val _ s.isLt r)]

-- One tile adds its rows' sum, and their number, to the running totals.
theorem pay2_step (c : Dev nD) (t : Fin cfg1.N) (xs0 : Vec Ideal S64x128 .f32) (g : Fin 64) (d : Fin 128) :
    k1_pay2 (k1_pay7 (bN V c t) (bA V c t) (bX V c t) (bW1 V c t) (bW2 V c t)) (k1_pay8 (bB V c t)) (bG V c t) xs0 (ix2 g d) = xs0 (ix2 g d) + tileSum V c g d t.val := by
  rw [pay2_apply, tile_sum_eq]

theorem pay3_step (c : Dev nD) (t : Fin cfg1.N) (xs1 : Vec Ideal S64x1 .f32) (g : Fin 64) :
    k1_pay3 (bG V c t) xs1 (ix2 g 0) = xs1 (ix2 g 0) + tileCnt V c g t.val := by
  rw [pay3_apply, tile_cnt_eq]

-- After point `n` the accumulators hold the sums and the counts over the tiles 0 … n.
def AccInv (c : Dev nD) (n : ℕ) (hn : n < cfg1.N) : Prop :=
  (∀ (g : Fin 64) (d : Fin 128), (outsAt1 (F := Ideal) V c n hn).2.1 (ix2 g d) = ∑ s ∈ Finset.range (n + 1), tileSum V c g d s) ∧
  (∀ g : Fin 64, (outsAt1 (F := Ideal) V c n hn).2.2 (ix2 g (0 : Fin 1)) = ∑ s ∈ Finset.range (n + 1), tileCnt V c g s)

theorem acc_inv (c : Dev nD) : ∀ (n : ℕ) (hn : n < cfg1.N), AccInv V c n hn
  | 0, hn => by
    unfold AccInv
    rw [acc_first V c hn]
    dsimp only
    exact ⟨fun g d => by rw [pay2_step, pay5_apply, Finset.sum_range_succ, Finset.sum_range_zero],
      fun g => by rw [pay3_step, pay6_apply, Finset.sum_range_succ, Finset.sum_range_zero]⟩
  | n + 1, hn => by
    have ih := acc_inv c n (Nat.lt_of_succ_lt hn)
    unfold AccInv at ih ⊢
    rw [acc_next V c n hn]
    dsimp only
    exact ⟨fun g d => by rw [pay2_step, ih.1 g d, Finset.sum_range_succ (fun s => tileSum V c g d s) (n + 1)],
      fun g => by rw [pay3_step, ih.2 g, Finset.sum_range_succ (fun s => tileCnt V c g s) (n + 1)]⟩

theorem tiles_sum (c : Dev nD) (g : Fin 64) (d : Fin 128) :
    ∑ s ∈ Finset.range 25, tileSum V c g d s
      = ∑ n ∈ Cert.Spec.members (fun n => aG V c (ix2 n (0 : Fin 1))) g, Cert.Arr.X2 (aA V c) (aX V c) (aN V c) (aW1 V c) (aW2 V c) (aB V c) n d :=
  sum_all_tiles (fun n => (aG V c (ix2 n (0 : Fin 1))).toInt = (g.val : ℤ)) (fun n => Cert.Arr.X2 (aA V c) (aX V c) (aN V c) (aW1 V c) (aW2 V c) (aB V c) n d)

theorem tiles_cnt (c : Dev nD) (g : Fin 64) :
    ∑ s ∈ Finset.range 25, tileCnt V c g s = ∑ _n ∈ Cert.Spec.members (fun n => aG V c (ix2 n (0 : Fin 1))) g, Cert.Spec.one :=
  sum_all_tiles (fun n => (aG V c (ix2 n (0 : Fin 1))).toInt = (g.val : ℤ)) (fun _ => Cert.Spec.one)

abbrev resultArr (c : Dev nD) : Buf (Elt Ideal) ((c : Thread nD τ).loc main_v45) :=
  Cert.Arr.G1 (aA V c) (aX V c) (aN V c) (aG V c) (aW1 V c) (aW2 V c) (aB V c) (aD1 V c) (aE1 V c) (aD2 V c) (aE2 V c)

theorem out_last (c : Dev nD) (n : ℕ) (hn : n + 1 < cfg1.N) (h1 : n + 1 = 24) (g : Fin 64) :
    (outsAt1 (F := Ideal) V c (n + 1) hn).1 (ix2 g (0 : Fin 1)) = resultArr V c (ix2 g (0 : Fin 1)) := by
  have ih := acc_inv V c n (Nat.lt_of_succ_lt hn)
  unfold AccInv at ih
  have e25 : Finset.range 25 = Finset.range (n + 1 + 1) := by rw [show n + 1 + 1 = 25 by omega]
  refine (congrFun (out_at_last V c n hn h1) (ix2 g 0)).trans ?_
  refine (pay4_apply _ _ _ _ _ _ g).trans ?_
  have hS : ∀ k : Fin 128, k1_pay2 (k1_pay7 (bN V c ⟨n + 1, hn⟩) (bA V c ⟨n + 1, hn⟩) (bX V c ⟨n + 1, hn⟩) (bW1 V c ⟨n + 1, hn⟩) (bW2 V c ⟨n + 1, hn⟩)) (k1_pay8 (bB V c ⟨n + 1, hn⟩)) (bG V c ⟨n + 1, hn⟩) (outsAt1 (F := Ideal) V c n (Nat.lt_of_succ_lt hn)).2.1 (ix2 g k)
      = ∑ m ∈ Cert.Spec.members (fun m => aG V c (ix2 m (0 : Fin 1))) g, Cert.Arr.X2 (aA V c) (aX V c) (aN V c) (aW1 V c) (aW2 V c) (aB V c) m k := fun k => by
    rw [pay2_step, ih.1 g k, ← tiles_sum, e25]
    exact (Finset.sum_range_succ (fun s => tileSum V c g k s) (n + 1)).symm
  have hC : k1_pay3 (bG V c ⟨n + 1, hn⟩) (outsAt1 (F := Ideal) V c n (Nat.lt_of_succ_lt hn)).2.2 (ix2 g 0)
      = ∑ _m ∈ Cert.Spec.members (fun m => aG V c (ix2 m (0 : Fin 1))) g, Cert.Spec.one := by
    rw [pay3_step, ih.2 g, ← tiles_cnt, e25]
    exact (Finset.sum_range_succ (fun s => tileCnt V c g s) (n + 1)).symm
  simp only [hS, hC, bD1_eq, bE1_eq, bD2_eq, bE2_eq]
  rfl

theorem out_last_fn (c : Dev nD) (t : Fin cfg1.N) (h1 : t.val = 24) : (outsAt1 (F := Ideal) V c t.val t.isLt).1 = resultArr V c := by
  obtain ⟨n, hn⟩ := t
  cases n with
  | zero => exact absurd h1 (show (0 : ℕ) ≠ 24 by decide)
  | succ n =>
    funext j
    obtain ⟨p, q, rfl⟩ : ∃ p q, j = ix2 p q := ⟨j 0, j 1, eq_ix2 j⟩
    obtain rfl : q = 0 := Subsingleton.elim _ _
    exact out_last V c n hn h1 p

abbrev tLast : Fin cfg1.N := ⟨24, by decide⟩

theorem flushed_eq (c : Dev nD) (t : Fin cfg1.N) (hf : (cfg1.win 11).flush t = true) :
    (dat1 (F := Ideal) V c).flushed 11 t = ((cfg1.win 11).blk t).view.read (Elt Ideal) (resultArr V c) := by
  have ht : t.val < 25 := N1_eq ▸ t.isLt
  have h24 : t.val = 24 := by have := (flush1_11 t).mp hf; omega
  obtain rfl : t = tLast := Fin.ext h24
  show (cfg1.win 11).cut (grid1.coords tLast) ((dat1 (F := Ideal) V c).after 11 tLast) = _
  rw [show (dat1 (F := Ideal) V c).after 11 tLast = (outsAt1 V c tLast.val tLast.isLt).1 from rfl, out_last_fn V c tLast rfl]
  have hz' : (fun a => win1_11.index tLast a * main_v45.ty.shape.size a) = fun _ => 0 := funext fun a => by fin_cases a <;> decide
  exact (Memref.read_access_unit_zero (Elt Ideal) main_v45 hz' (fun a => by rw [congrFun hz' a]; simp) (resultArr V c)).symm

-- The one write-back, at the last point, covers the whole [64, 1] array.
theorem arr1_result (c : Dev nD) : (dat1 (F := Ideal) V c).arrAt 11 cfg1.N = resultArr V c :=
  (dat1 (F := Ideal) V c).arrAt_eq_of_cover 11 (resultArr V c) (flushed_eq V c) fun i =>
    ⟨tLast, (flush1_11 tLast).mpr rfl, by
      show i ∈ ((View.whole main_v45).slice (win1_11.rect tLast)).set
      rw [View.set_slice_whole, Rect.mem_set_unit]
      intro a
      have h0 : (i 0 : Nat) < 64 := (i 0).isLt
      have h1 : (i 1 : Nat) < 1 := (i 1).isLt
      match a with
      | ⟨0, _⟩ =>
        show win1_11.index tLast 0 * win1_11.size 0 ≤ (i 0 : Nat) ∧ (i 0 : Nat) < win1_11.index tLast 0 * win1_11.size 0 + win1_11.xsize (grid1.coords tLast) 0
        rw [show win1_11.index tLast 0 * win1_11.size 0 = 0 from by decide +kernel, show win1_11.xsize (grid1.coords tLast) 0 = 64 from by decide +kernel]; omega
      | ⟨1, _⟩ =>
        show win1_11.index tLast 1 * win1_11.size 1 ≤ (i 1 : Nat) ∧ (i 1 : Nat) < win1_11.index tLast 1 * win1_11.size 1 + win1_11.xsize (grid1.coords tLast) 1
        rw [show win1_11.index tLast 1 * win1_11.size 1 = 0 from by decide +kernel, show win1_11.xsize (grid1.coords tLast) 1 = 1 from by decide +kernel]; omega⟩

theorem arr1 (c : Dev nD) :
    ((Cert.KernelIdeal.Hand.dat1 (F := Ideal) V c).arrAt 11 cfg1.N : Cert.Arr.SGx1.Idx → EReal) = Cert.Arr.G1 (V c main_v40) (V c main_arg0) (V c main_v9) (V c main_v41) (V c main_arg7) (V c main_arg8) (V c main_v42) (V c main_arg10) (V c main_v43) (V c main_arg12) (V c main_v44) :=
  arr1_result V c

end Cert.KernelIdeal.Val

end
-- ==== Proof.LibRowIndex.lean ====
import Idealize.ShloMosaic.Lib.ValueIdx
import Idealize.ShloMosaic.Lib.StableHlo.Predicate
import proofs.«414551_j48034914238531_3_alg».proof.Proof.LibRowGather

noncomputable section

namespace Cert.RowIndex

open Idealize.ShloMosaic Idealize.ShloMosaic.ValueIdx Cert.LibRowGather

abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

-- A word that reads, signed, a row number is clamped to that row.
theorem clampRow_of_toInt {N w : Nat} (hN : 0 < N) (v : BitVec w) (n : Fin N) (h : v.toInt = (n.val : ℤ)) :
    clampRow N hN v = n :=
  Fin.ext (by show min v.toInt.toNat (N - 1) = n.val; have := n.isLt; omega)

-- The wrap-around of a negative position leaves a non-negative word as it is.
theorem wrap_of_nonneg (v c : BitVec 32) (h : 0 ≤ v.toInt) :
    Scalar.select (IntOp.cmpi .slt v 0#32) (IntOp.addi v c) v = v := by
  have hs : v.slt 0#32 = false := by
    unfold BitVec.slt
    rw [BitVec.toInt_zero]
    exact decide_eq_false (by omega)
  show Scalar.select (BitVec.ofBool (v.slt 0#32)) (IntOp.addi v c) v = v
  rw [hs]
  exact select_zero _ _

end Cert.RowIndex

end
-- ==== Proof.LibSegmentCount.lean ====
import Idealize.ShloMosaic.PureOps.Ideal
import Idealize.ShloMosaic.PureOps.Contract
import Idealize.ShloMosaic.Lib.ValueIdx

noncomputable section

namespace Cert.LibSegmentCount

open Idealize.ShloMosaic Idealize.ShloMosaic.ValueIdx

open scoped BigOperators

-- An update lands on entry i exactly when, on every axis, its window's start plus its window coordinate is i's coordinate.
theorem resultIdx?_eq_some_iff {s si u : Shape} (d : ScatterDims s si u) {w : Nat} (j : u.Idx) (idx : IVec si w) (i : s.Idx) :
    d.resultIdx? j idx = some i ↔ ∀ a, d.start j idx a + d.window j a = ((i a).val : ℤ) := by
  unfold ScatterDims.resultIdx?
  constructor
  · intro h a
    split at h
    · rename_i hall
      rw [← Option.some.inj h]
      have := (hall a).1
      show _ = ((Int.toNat _ : ℕ) : ℤ)
      omega
    · exact absurd h (by simp)
  · intro h
    rw [dif_pos fun a => by rw [h a]; have := (i a).isLt; omega]
    exact congrArg some (funext fun a => Fin.ext (by show Int.toNat _ = _; rw [h a]; exact Int.toNat_natCast _))

abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} {φ : FTy} (wf : ScatterDims.WF ⟨1, ![N]⟩ ⟨2, ![E, 1]⟩ ⟨1, ![E]⟩ [] [0] [0] 1)
  (x : FVec Ideal ⟨1, ![N]⟩ φ) (idx : IVec ⟨2, ![E, 1]⟩ w) (upd : FVec Ideal ⟨1, ![E]⟩ φ) (n : Fin N)

-- The vector's one axis is the scattered one: the window starts at the update's index word, read signed.
private theorem start_zero (e : Fin E) : (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  exact congrArg (fun y => (idx y).toInt) (eq_ix2 _)

theorem vecScatter_resultIdx_iff (e : Fin E) :
    (vecScatterDims N E wf).resultIdx? (ix1 e) idx = some (ix1 n) ↔ (idx (ix2 e (0 : Fin 1))).toInt = (n.val : ℤ) := by
  rw [resultIdx?_eq_some_iff, Fin.forall_fin_one, start_zero]
  show _ + ((0 : ℕ) : ℤ) = _ ↔ _
  rw [Int.natCast_zero, add_zero]

-- The scatter-add at n: the entry there plus the updates whose index word reads n.
theorem scatterAdd_vec_apply : Host.scatterAdd (vecScatterDims N E wf) x idx upd (ix1 n)
    = x (ix1 n) + ∑ e ∈ Finset.univ.filter (fun e : Fin E => (idx (ix2 e (0 : Fin 1))).toInt = (n.val : ℤ)), upd (ix1 e) := by
  show x (ix1 n) + ∑ j ∈ Finset.univ.filter (fun j => (vecScatterDims N E wf).resultIdx? j idx = some (ix1 n)), upd j = _
  congr 1
  symm
  refine Finset.sum_bij (fun e _ => (ix1 e : (⟨1, ![E]⟩ : Shape).Idx)) (fun e he => ?_) (fun _ _ _ _ h => congrFun h 0)
    (fun j hj => ?_) fun _ _ => rfl
  · exact Finset.mem_filter.mpr ⟨Finset.mem_univ _, (vecScatter_resultIdx_iff wf idx n e).mpr (Finset.mem_filter.mp he).2⟩
  · have h := (Finset.mem_filter.mp hj).2
    rw [eq_ix1 j] at h
    exact ⟨j 0, Finset.mem_filter.mpr ⟨Finset.mem_univ _, (vecScatter_resultIdx_iff wf idx n _).mp h⟩, (eq_ix1 j).symm⟩

end Cert.LibSegmentCount

end
-- ==== Proof.LibSegmentSum.lean ====
import Idealize.ShloMosaic.PureOps.Ideal
import Idealize.ShloMosaic.PureOps.Contract
import Idealize.ShloMosaic.Lib.ValueIdx
import proofs.«414551_j48034914238531_3_alg».proof.Proof.LibRowIndex
import proofs.«414551_j48034914238531_3_alg».proof.Proof.LibSegmentCount

noncomputable section

namespace Cert.LibSegmentSum

open Idealize.ShloMosaic Idealize.ShloMosaic.ValueIdx Cert.RowIndex

open scoped BigOperators

variable {N D E w : Nat} {φ : FTy} (wf : ScatterDims.WF ⟨2, ![N, D]⟩ ⟨2, ![E, 1]⟩ ⟨2, ![E, D]⟩ [1] [0] [0] 1)
  (x : FVec Ideal ⟨2, ![N, D]⟩ φ) (idx : IVec ⟨2, ![E, 1]⟩ w) (upd : FVec Ideal ⟨2, ![E, D]⟩ φ) (n : Fin N) (k : Fin D)

-- Axis 0 of the array is the scattered one: the window starts at the row's index word, read signed.
private theorem start_zero (e : Fin E) : (rowScatterDims N D E wf).start (ix2 e k) idx 0 = (idx (ix2 e (0 : Fin 1))).toInt := by
  unfold ScatterDims.start
  rw [dif_pos (show (0 : Fin 2) ∈ (rowScatterDims N D E wf).scatterDimsToOperandDims from List.mem_singleton.mpr rfl)]
  exact congrArg (fun y => (idx y).toInt) (eq_ix2 _)

-- Update entry (e, k') lands on (n, k) exactly when row e's index word reads n and the columns agree.
theorem rowScatter_resultIdx_iff (e : Fin E) (k' : Fin D) :
    (rowScatterDims N D E wf).resultIdx? (ix2 e k') idx = some (ix2 n k)
      ↔ (idx (ix2 e (0 : Fin 1))).toInt = (n.val : ℤ) ∧ k' = k := by
  rw [Cert.LibSegmentCount.resultIdx?_eq_some_iff, Fin.forall_fin_two, start_zero, Fin.ext_iff]
  show _ + ((0 : ℕ) : ℤ) = (n.val : ℤ) ∧ (0 : ℤ) + (k'.val : ℤ) = (k.val : ℤ) ↔ _
  omega

-- The scatter-add at (n, k): the entry there plus column k of the update rows whose index word reads n.
theorem scatterAdd_row_apply : Host.scatterAdd (rowScatterDims N D E wf) x idx upd (ix2 n k)
    = x (ix2 n k) + ∑ e ∈ Finset.univ.filter (fun e : Fin E => (idx (ix2 e (0 : Fin 1))).toInt = (n.val : ℤ)), upd (ix2 e k) := by
  show x (ix2 n k) + ∑ j ∈ Finset.univ.filter (fun j => (rowScatterDims N D E wf).resultIdx? j idx = some (ix2 n k)), upd j = _
  congr 1
  symm
  refine Finset.sum_bij (fun e _ => (ix2 e k : (⟨2, ![E, D]⟩ : Shape).Idx)) (fun e he => ?_) (fun _ _ _ _ h => congrFun h 0)
    (fun j hj => ?_) fun _ _ => rfl
  · exact Finset.mem_filter.mpr ⟨Finset.mem_univ _, (rowScatter_resultIdx_iff wf idx n k e k).mpr ⟨(Finset.mem_filter.mp he).2, rfl⟩⟩
  · have h := (Finset.mem_filter.mp hj).2
    rw [eq_ix2 j] at h
    obtain ⟨h1, h2⟩ := (rowScatter_resultIdx_iff wf idx n k _ _).mp h
    exact ⟨j 0, Finset.mem_filter.mpr ⟨Finset.mem_univ _, h1⟩, by rw [← h2]; exact (eq_ix2 j).symm⟩

end Cert.LibSegmentSum

end
-- ==== Proof.Val.Host.lean ====
import proofs.«414551_j48034914238531_3_alg».proof.Proof.Gen.KernelIdeal.Launch
import proofs.«414551_j48034914238531_3_alg».proof.Proof.Arr
import proofs.«414551_j48034914238531_3_alg».proof.Proof.LibRowGather
import proofs.«414551_j48034914238531_3_alg».proof.Proof.LibRowIndex
import proofs.«414551_j48034914238531_3_alg».proof.Proof.LibSegmentSum
import proofs.«414551_j48034914238531_3_alg».proof.Proof.LibSegmentCount
import proofs.«414551_j48034914238531_3_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Idealize.ShloMosaic.TcCoe
open Cert.KernelIdeal Cert.KernelIdeal.Gen
open scoped BigOperators

variable {α : Type}

theorem bcastScalar_apply {t : Shape} (h : S_.BroadcastsInDim t (![] : Fin 0 → Fin t.rank)) (x : S_.Idx → α) (j : t.Idx) :
    broadcastInDim t (no_index ![]) h x j = x ix0 :=
  broadcastInDim_apply _ h x j ix0 (fun a => a.elim0)

theorem bcastColumn_apply {a : Nat} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (no_index ![0]) h x (ix2 p u) = x (ix1 p) := by
  refine broadcastInDim_apply _ h x _ _ fun ax => ?_
  match ax with
  | ⟨0, _⟩ =>
    show p.val = if a = 1 then 0 else p.val
    split
    · have := p.isLt; omega
    · rfl

theorem bcastRows_apply {a b : Nat} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (no_index ![0, 1]) h x (ix2 p c) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

theorem cast_rowOf {n : Nat} (v : (⟨1, ![n]⟩ : Shape).Idx → α) (h : (⟨1, ![n]⟩ : Shape).ShapeCasts ⟨2, ![1, n]⟩) :
    shapeCast ⟨2, ![1, n]⟩ v h = Cert.Arr.rowOf v :=
  funext fun j => (congrArg _ (eq_ix2 j)).trans (shapeCast_a_1a_apply v h (j 0) (j 1))

theorem cast_colOf {n : Nat} (v : (⟨1, ![n]⟩ : Shape).Idx → α) (h : (⟨1, ![n]⟩ : Shape).ShapeCasts ⟨2, ![n, 1]⟩) :
    shapeCast ⟨2, ![n, 1]⟩ v h = Cert.Arr.colOf v :=
  funext fun j => (congrArg _ (eq_ix2 j)).trans (Cert.LibKeepdims.shapeCast_a_a1_apply v h (j 0) (j 1))

theorem hostRsqrt_apply {s : Shape} {φ : FTy} (x : FVec Ideal s φ) (i : s.Idx) : Host.rsqrt x i = Ideal.rsqrt (x i) := rfl
theorem cmpi_apply {s : Shape} {w : Nat} (p : CmpIPredicate) (x y : IVec s w) (i : s.Idx) : cmpi p x y i = IntOp.cmpi p (x i) (y i) := rfl
theorem addi_apply {s : Shape} {w : Nat} (x y : IVec s w) (i : s.Idx) : addi x y i = IntOp.addi (x i) (y i) := rfl

section
variable {N D E : Nat} (he : S_.BroadcastsInDim ⟨1, ![E]⟩ (![] : Fin 0 → Fin 1))
  (hc : (⟨1, ![E]⟩ : Shape).BroadcastsInDim ⟨2, ![E, 1]⟩ (![0] : Fin 1 → Fin 2))
  (wfn : ScatterDims.WF ⟨1, ![N]⟩ ⟨2, ![E, 1]⟩ ⟨1, ![E]⟩ [] [0] [0] 1)
  (hzn : S_.BroadcastsInDim ⟨1, ![N]⟩ (![] : Fin 0 → Fin 1)) (hs : (⟨1, ![N]⟩ : Shape).ShapeCasts ⟨2, ![N, 1]⟩)
  (wfs : ScatterDims.WF ⟨2, ![N, D]⟩ ⟨2, ![E, 1]⟩ ⟨2, ![E, D]⟩ [1] [0] [0] 1)
  (wfg : GatherDims.WF ⟨2, ![N, D]⟩ ⟨2, ![E, 1]⟩ ⟨2, ![E, D]⟩ [1] [0] [] [0] [] 1 ![1, D])
  (hz : S_.BroadcastsInDim ⟨2, ![N, D]⟩ (![] : Fin 0 → Fin 2)) (hlt : FTy.bits .bf16 < FTy.bits .f32) (c : BitVec 32)
  (T : (⟨2, ![N, D]⟩ : Shape).Idx → EReal) (src dst : (⟨1, ![E]⟩ : Shape).Idx → BitVec 32)

-- The degree factor as the operations build it: ones scattered onto zeros by the destination words, one added, the maximum with one, the inverse square root.
def normTerm : (⟨2, ![N, 1]⟩ : Shape).Idx → EReal :=
  shapeCast ⟨2, ![N, 1]⟩
    (Host.rsqrt (maximumf
      (addf
        (Host.scatterAdd (Cert.LibSegmentCount.vecScatterDims N E wfn)
          (broadcastInDim ⟨1, ![N]⟩ ![] hzn (constant (F := Ideal) S_ .f32 0x00000000#32))
          (broadcastInDim ⟨2, ![E, 1]⟩ ![0] hc dst)
          (broadcastInDim ⟨1, ![E]⟩ ![] he (constant (F := Ideal) S_ .f32 0x3F800000#32)))
        (broadcastInDim ⟨1, ![N]⟩ ![] hzn (constant (F := Ideal) S_ .f32 0x3F800000#32)))
      (broadcastInDim ⟨1, ![N]⟩ ![] hzn (constant (F := Ideal) S_ .f32 0x3F800000#32))))
    hs

theorem normTerm_apply (p : Fin N) (q : Fin 1) :
    normTerm he hc wfn hzn hs dst (ix2 p q)
    = Ideal.rsqrt (max ((∑ _e ∈ Finset.univ.filter (fun e : Fin E => (dst (ix1 e)).toInt = (p.val : ℤ)), Cert.Spec.one)
        + Cert.Spec.one) Cert.Spec.one) := by
  refine (Cert.LibKeepdims.shapeCast_a_a1_apply _ _ p q).trans ?_
  rw [hostRsqrt_apply, maximumf_apply, addf_apply, Cert.LibSegmentCount.scatterAdd_vec_apply]
  simp only [bcastScalar_apply, bcastColumn_apply, constant_apply, Ideal.ofBits_zero_f32, zero_add]

-- One propagation of a table: the source words wrapped once by c, the rows looked up, scattered onto zeros by the destination words, the table added.
def aggTerm : (⟨2, ![N, D]⟩ : Shape).Idx → EReal :=
  addf
    (Host.scatterAdd (Cert.RowIndex.rowScatterDims N D E wfs)
      (broadcastInDim ⟨2, ![N, D]⟩ ![] hz (constant (F := Ideal) S_ .f32 0x00000000#32))
      (broadcastInDim ⟨2, ![E, 1]⟩ ![0] hc dst)
      (extf .f32
        (Host.gather (Cert.LibRowGather.rowDims N D E wfg) (T : FVec Ideal ⟨2, ![N, D]⟩ .bf16)
          (broadcastInDim ⟨2, ![E, 1]⟩ ![0] hc
            (select (cmpi .slt src (broadcastInDim ⟨1, ![E]⟩ ![] he (constantI S_ 32 0#32)))
              (addi src (broadcastInDim ⟨1, ![E]⟩ ![] he (constantI S_ 32 c))) src)))
        hlt))
    (extf .f32 (T : FVec Ideal ⟨2, ![N, D]⟩ .bf16) hlt)

theorem aggTerm_apply (hN : 0 < N) (n : Fin N) (k : Fin D) :
    aggTerm he hc wfs wfg hz hlt c T src dst (ix2 n k)
    = (∑ e ∈ Finset.univ.filter (fun e : Fin E => (dst (ix1 e)).toInt = (n.val : ℤ)),
        T (ix2 (Cert.LibRowGather.clampRow N hN
          (Scalar.select (IntOp.cmpi .slt (src (ix1 e)) 0#32) (IntOp.addi (src (ix1 e)) c) (src (ix1 e)))) k))
      + T (ix2 n k) := by
  unfold aggTerm
  rw [addf_apply, extf_apply, Cert.LibSegmentSum.scatterAdd_row_apply]
  simp only [bcastScalar_apply, bcastColumn_apply, constant_apply, Ideal.ofBits_zero_f32, zero_add, extf_apply,
    Cert.LibRowGather.gather_row_apply hN, select_apply, cmpi_apply, addi_apply, constantI_apply]

end

def normT (dst : S1600000.Idx → BitVec 32) : S100000x1.Idx → EReal :=
  normTerm Facts₀.bcast_S_S1600000 Facts₀.bcast_S1600000_S1600000x1_0 Facts₀.scatter_S100000_S1600000x1_S1600000_n_0_0_1_wf
    Facts₀.bcast_S_S100000 Facts₀.shapeCasts_S100000_S100000x1 dst

theorem normT_eq (dst : S1600000.Idx → BitVec 32) : normT dst = Cert.Arr.NormArr dst :=
  funext fun j => (congrArg _ (eq_ix2 j)).trans (normTerm_apply _ _ _ _ _ dst (j 0) (j 1))

def aggT (T : S100000x128.Idx → EReal) (src dst : S1600000.Idx → BitVec 32) : S100000x128.Idx → EReal :=
  aggTerm Facts₀.bcast_S_S1600000 Facts₀.bcast_S1600000_S1600000x1_0 Facts₀.scatter_S100000x128_S1600000x1_S1600000x128_1_0_0_1_wf
    Facts₀.gather_S100000x128_S1600000x1_S1600000x128_1_0_n_n_0_1_1128_wf Facts₀.bcast_S_S100000x128 Facts₀.bitsLt_bf16_f32 100000#32 T src dst

theorem aggT_eq (T : S100000x128.Idx → EReal) (src dst : S1600000.Idx → BitVec 32) : aggT T src dst = Cert.Arr.AggArr T src dst :=
  funext fun j => (congrArg _ (eq_ix2 j)).trans (aggTerm_apply _ _ _ _ _ _ _ T src dst (by decide) (j 0) (j 1))

variable (W : Valuation τ sig (Elt Ideal))

theorem host0_norm :
    (StableHlo.after (hostOps0 (F := Ideal)) W (Proc.devRef .tc main_v9) : Cert.Arr.SNx1.Idx → EReal)
      = Cert.Arr.NormArr (W (Proc.devRef .tc main_arg2)) := by
  refine Eq.trans ?_ (normT_eq (W (Proc.devRef .tc main_arg2)))
  after_results_simp; rfl

theorem host0_agg :
    (StableHlo.after (hostOps0 (F := Ideal)) W (Proc.devRef .tc main_v25) : Cert.Arr.SNx128.Idx → EReal)
      = Cert.Arr.AggArr (Cert.Arr.PreArr (W (Proc.devRef .tc main_arg0)) (Cert.Arr.NormArr (W (Proc.devRef .tc main_arg2))))
          (W (Proc.devRef .tc main_arg1)) (W (Proc.devRef .tc main_arg2)) := by
  have e : (StableHlo.after (hostOps0 (F := Ideal)) W (Proc.devRef .tc main_v25) : S100000x128.Idx → EReal)
      = aggT (truncf (F := Ideal) .bf16
            (mulf (W (Proc.devRef .tc main_arg0) : FVec Ideal S100000x128 .f32)
              (broadcastInDim S100000x128 ![0, 1] Facts₀.bcast_S100000x1_S100000x128_0_1 (normT (W (Proc.devRef .tc main_arg2)))))
            Facts₀.bitsLt_bf16_f32)
          (W (Proc.devRef .tc main_arg1)) (W (Proc.devRef .tc main_arg2)) := by
    after_results_simp; rfl
  refine e.trans ((aggT_eq _ _ _).trans (congrArg (Cert.Arr.AggArr · _ _) (funext fun j => ?_)))
  obtain ⟨n, k, rfl⟩ : ∃ n k, j = ix2 n k := ⟨j 0, j 1, eq_ix2 j⟩
  rw [truncf_apply, mulf_apply, bcastRows_apply, normT_eq]
  rfl

theorem host0_b :
    (StableHlo.after (hostOps0 (F := Ideal)) W (Proc.devRef .tc main_v26) : Cert.Arr.S1xD.Idx → EReal)
      = Cert.Arr.rowOf (W (Proc.devRef .tc main_arg6)) := by
  refine Eq.trans ?_ (cast_rowOf (W (Proc.devRef .tc main_arg6) : S128.Idx → EReal) Facts₀.shapeCasts_S128_S1x128)
  after_results_simp; rfl

theorem host1_agg :
    (StableHlo.after (hostOps1 (F := Ideal)) W (Proc.devRef .tc main_v40) : Cert.Arr.SNx128.Idx → EReal)
      = Cert.Arr.AggArr (W (Proc.devRef .tc main_v27)) (W (Proc.devRef .tc main_arg1)) (W (Proc.devRef .tc main_arg2)) := by
  refine Eq.trans ?_ (aggT_eq (W (Proc.devRef .tc main_v27)) (W (Proc.devRef .tc main_arg1)) (W (Proc.devRef .tc main_arg2)))
  after_results_simp; rfl

theorem host1_gid :
    (StableHlo.after (hostOps1 (F := Ideal)) W (Proc.devRef .tc main_v41) : Cert.Arr.SNx1.Idx → BitVec 32)
      = Cert.Arr.colOf (W (Proc.devRef .tc main_arg3)) := by
  refine Eq.trans ?_ (cast_colOf (W (Proc.devRef .tc main_arg3) : S100000.Idx → BitVec 32) Facts₀.shapeCasts_S100000_S100000x1)
  after_results_simp; rfl

theorem host1_b :
    (StableHlo.after (hostOps1 (F := Ideal)) W (Proc.devRef .tc main_v42) : Cert.Arr.S1xD.Idx → EReal)
      = Cert.Arr.rowOf (W (Proc.devRef .tc main_arg9)) := by
  refine Eq.trans ?_ (cast_rowOf (W (Proc.devRef .tc main_arg9) : S128.Idx → EReal) Facts₀.shapeCasts_S128_S1x128)
  after_results_simp; rfl

theorem host1_e1 :
    (StableHlo.after (hostOps1 (F := Ideal)) W (Proc.devRef .tc main_v43) : Cert.Arr.S1xH.Idx → EReal)
      = Cert.Arr.rowOf (W (Proc.devRef .tc main_arg11)) := by
  refine Eq.trans ?_ (cast_rowOf (W (Proc.devRef .tc main_arg11) : S32.Idx → EReal) Facts₀.shapeCasts_S32_S1x32)
  after_results_simp; rfl

theorem host1_e2 :
    (StableHlo.after (hostOps1 (F := Ideal)) W (Proc.devRef .tc main_v44) : Cert.Arr.S1x1'.Idx → EReal)
      = Cert.Arr.rowOf (W (Proc.devRef .tc main_arg13)) := by
  refine Eq.trans ?_ (cast_rowOf (W (Proc.devRef .tc main_arg13) : S1.Idx → EReal) Facts₀.shapeCasts_S1_S1x1)
  after_results_simp; rfl

end Cert.KernelIdeal.Val

end
-- ==== Proof.Val.KNet.lean ====
import proofs.«414551_j48034914238531_3_alg».proof.Proof.KI.Run
import proofs.«414551_j48034914238531_3_alg».proof.Proof.Val.K0
import proofs.«414551_j48034914238531_3_alg».proof.Proof.Val.K1c
import proofs.«414551_j48034914238531_3_alg».proof.Proof.Val.Host

set_option maxRecDepth 16384

noncomputable section

namespace Cert.KernelIdeal.Val

open Idealize.ShloMosaic Idealize.ShloMosaic.TcCoe Idealize.SL Idealize.SL.Sem
open Cert.KernelIdeal Cert.KernelIdeal.Gen Cert.KernelIdeal.Hand Cert.Arr

variable (m : (ℓ : Loc nD τ sig) → Buf (Elt Ideal) ℓ) (ρ : Dev nD → PrngReg)

-- An argument array still holds its launch contents when the second call starts.
theorem Wt1_arg (c : Dev nD) (r : Ref sig .tc) (h : r ∉ hostOps0_W) : Wt1 m ρ c (Proc.devRef .tc r) = m ((c : Thread nD τ).loc r) :=
  (Wt1_of m ρ c r h).trans rfl

theorem Wt2_arg (c : Dev nD) (r : Ref sig .tc) (h : r ∉ hostOps0_W) (hw : ∀ w : Fin 7, Pipeline.arrRef spec0 w ≠ r) :
    Wt2 m ρ c (Proc.devRef .tc r) = m ((c : Thread nD τ).loc r) :=
  (Wt2_of_ne m ρ c r hw).trans (Wt1_arg m ρ c r h)

theorem Vt3_arg (c : Dev nD) (r : Ref sig .tc) (h : r ∉ hostOps0_W) (hw : ∀ w : Fin 7, Pipeline.arrRef spec0 w ≠ r) (h1 : r ∉ hostOps1_W) :
    Vt3 m ρ c r = m ((c : Thread nD τ).loc r) :=
  (Wt3_of m ρ c r h1).trans (Wt2_arg m ρ c r h hw)

theorem G0_congr {A A' X X' n n' W1 W1' W2 W2' b b'} (hA : A = A') (hX : X = X') (hn : n = n') (h1 : W1 = W1') (h2 : W2 = W2') (hb : b = b') :
    G0 A X n W1 W2 b = G0 A' X' n' W1' W2' b' := by subst_vars; rfl
theorem AggArr_congr {T T' s s' d d'} (hT : T = T') (hs : s = s') (hd : d = d') : AggArr T s d = AggArr T' s' d' := by subst_vars; rfl
theorem G1_congr {A A' X X' n n' g g' W1 W1' W2 W2' b b' D1 D1' e1 e1' D2 D2' e2 e2'}
    (hA : A = A') (hX : X = X') (hn : n = n') (hg : g = g') (h1 : W1 = W1') (h2 : W2 = W2') (hb : b = b')
    (hD1 : D1 = D1') (he1 : e1 = e1') (hD2 : D2 = D2') (he2 : e2 = e2') :
    G1 A X n g W1 W2 b D1 e1 D2 e2 = G1 A' X' n' g' W1' W2' b' D1' e1' D2' e2' := by subst_vars; rfl

-- The second call's array is the read-out of what the second host stretch left: the propagation of the first call's array, itself the first layer of what the first stretch left.
theorem kernel_net (c : Dev nD) : ((dat1 (F := Ideal) (Vt3 m ρ) c).arrAt 11 cfg1.N : SGx1.Idx → EReal)
    = Net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (arr1 (Vt3 m ρ) c).trans
    (G1_congr
      ((host1_agg (Wt2 m ρ c)).trans (AggArr_congr
        ((Wt2_arr m ρ c 6).trans ((arr0 (Vt1 m ρ) c).trans
          (G0_congr (host0_agg (Wt0 m ρ c)) (Wt1_arg m ρ c main_arg0 (by decide)) (host0_norm (Wt0 m ρ c))
            (Wt1_arg m ρ c main_arg4 (by decide)) (Wt1_arg m ρ c main_arg5 (by decide)) (host0_b (Wt0 m ρ c)))))
        (Wt2_arg m ρ c main_arg1 (by decide) (by decide)) (Wt2_arg m ρ c main_arg2 (by decide) (by decide))))
      ((Wt3_of m ρ c main_arg0 (by decide)).trans ((Wt2_in m ρ c 1 rfl).trans (Wt1_arg m ρ c main_arg0 (by decide))))
      ((Wt3_of m ρ c main_v9 (by decide)).trans ((Wt2_in m ρ c 2 rfl).trans (host0_norm (Wt0 m ρ c))))
      ((host1_gid (Wt2 m ρ c)).trans (congrArg Cert.Arr.colOf (Wt2_arg m ρ c main_arg3 (by decide) (by decide))))
      (Vt3_arg m ρ c main_arg7 (by decide) (by decide) (by decide)) (Vt3_arg m ρ c main_arg8 (by decide) (by decide) (by decide))
      ((host1_b (Wt2 m ρ c)).trans (congrArg Cert.Arr.rowOf (Wt2_arg m ρ c main_arg9 (by decide) (by decide))))
      (Vt3_arg m ρ c main_arg10 (by decide) (by decide) (by decide))
      ((host1_e1 (Wt2 m ρ c)).trans (congrArg Cert.Arr.rowOf (Wt2_arg m ρ c main_arg11 (by decide) (by decide))))
      (Vt3_arg m ρ c main_arg12 (by decide) (by decide) (by decide))
      ((host1_e2 (Wt2 m ρ c)).trans (congrArg Cert.Arr.rowOf (Wt2_arg m ρ c main_arg13 (by decide) (by decide)))))

end Cert.KernelIdeal.Val

end
-- ==== Proof.Ref.Gen.lean ====
import proofs.«414551_j48034914238531_3_alg».proof.Proof.Gen.ReferenceIdeal.Run
import proofs.«414551_j48034914238531_3_alg».proof.Proof.Gen.ReferenceIdeal.Read
-- ==== Proof.Ref.Chain.lean ====
import proofs.«414551_j48034914238531_3_alg».proof.Proof.Ref.Gen
import proofs.«414551_j48034914238531_3_alg».proof.Proof.Arr
import proofs.«414551_j48034914238531_3_alg».proof.Proof.LibRowGather
import proofs.«414551_j48034914238531_3_alg».proof.Proof.LibRowIndex
import proofs.«414551_j48034914238531_3_alg».proof.Proof.LibSegmentSum
import proofs.«414551_j48034914238531_3_alg».proof.Proof.LibSegmentCount
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.RefValue

open Cert.ReferenceIdeal Cert.ReferenceIdeal.Gen Idealize.ShloMosaic Idealize.ShloMosaic.ValueIdx
  Idealize.ShloMosaic.StableHlo Cert.LibRowGather Cert.RowIndex
open scoped BigOperators

def posE (e : Fin 1600000) : Fin 1700000 := ⟨e.val, by have := e.isLt; omega⟩
def posL (j : Fin 100000) : Fin 1700000 := ⟨1600000 + j.val, by have := j.isLt; omega⟩

theorem sum_joined {M : Type*} [AddCommMonoid M] (P : Fin 1700000 → Prop) [DecidablePred P] (f : Fin 1700000 → M) :
    ∑ p ∈ Finset.univ.filter P, f p
      = ∑ e ∈ Finset.univ.filter (fun e : Fin 1600000 => P (posE e)), f (posE e)
        + ∑ j ∈ Finset.univ.filter (fun j : Fin 100000 => P (posL j)), f (posL j) := by
  rw [Finset.sum_filter, Finset.sum_filter, Finset.sum_filter]
  exact Fin.sum_univ_add (a := 1600000) (b := 100000) (fun p => if P p then f p else 0)

-- Of the self loops only the one of node n has the number n.
theorem sum_loops {M : Type*} [AddCommMonoid M] (n : Fin 100000) (g : Fin 100000 → M) :
    ∑ j ∈ Finset.univ.filter (fun j : Fin 100000 => (j.val : ℤ) = (n.val : ℤ)), g j = g n := by
  rw [Finset.sum_filter, Finset.sum_eq_single n (fun j _ hj => if_neg fun h => hj (Fin.ext (by omega)))
    fun h => absurd (Finset.mem_univ n) h, if_pos rfl]

theorem loop_toInt (j : Fin 100000) : (BitVec.ofNat 32 j.val).toInt = (j.val : ℤ) := by
  have hj := j.isLt
  have h1 : (BitVec.ofNat 32 j.val).toNat = j.val := by
    rw [BitVec.toNat_ofNat]; exact Nat.mod_eq_of_lt (by omega)
  rw [BitVec.toInt_eq_toNat_cond, h1, if_pos (by omega)]

theorem loop_wrapRow (j : Fin 100000) : Cert.Spec.wrapRow (BitVec.ofNat 32 j.val) = j := by
  unfold Cert.Spec.wrapRow
  rw [wrap_of_nonneg _ _ (by rw [loop_toInt]; exact Int.natCast_nonneg _)]
  exact clampRow_of_toInt _ _ j (loop_toInt j)

def joined (x : IVec S1600000 32) : IVec S1700000 32 :=
  concatenate S1700000 0 [⟨S1600000, x⟩, ⟨S100000, iotaInDim S100000 32 0⟩] concatenates_S1600000_S100000_S1700000_d0

theorem joined_edge (x : IVec S1600000 32) (e : Fin 1600000) : joined x (ix1 (posE e)) = x (ix1 e) :=
  concatenate_pair_apply_left 0 x _ concatenates_S1600000_S100000_S1700000_d0 _ rfl (ix1 e) (fun b => by
    match b with
    | ⟨0, _⟩ => rfl)

theorem joined_loop (x : IVec S1600000 32) (j : Fin 100000) : joined x (ix1 (posL j)) = BitVec.ofNat 32 j.val :=
  concatenate_pair_apply_right 0 x (iotaInDim S100000 32 0) concatenates_S1600000_S100000_S1700000_d0 _ rfl rfl (ix1 j)
    (fun b hb => by
      match b with
      | ⟨0, _⟩ => exact absurd rfl hb)
    (by show j.val + 1600000 = 1600000 + j.val; omega)

-- A scalar broadcast to any shape reads the scalar everywhere.
theorem bcast0_apply {α : Type} {s : Shape} (h : S_.BroadcastsInDim s ![]) (v : S_.Idx → α) (i : s.Idx) :
    broadcastInDim s ![] h v i = v fun a => a.elim0 :=
  broadcastInDim_apply _ h v i _ fun a => a.elim0

def col (y : IVec S1700000 32) : IVec S1700000x1 32 := broadcastInDim S1700000x1 ![0] bcast_S1700000_S1700000x1_0 y

theorem col_apply (y : IVec S1700000 32) (p : Fin 1700000) : col y (ix2 p (0 : Fin 1)) = y (ix1 p) :=
  broadcastInDim_apply _ bcast_S1700000_S1700000x1_0 y _ (ix1 p) (fun a => match a with
    | ⟨0, _⟩ => by show p.val = if (1700000 : Nat) = 1 then 0 else p.val; rw [if_neg (by decide)])

def wrapped (x : IVec S1600000 32) : IVec S1700000 32 :=
  select (cmpi .slt (joined x) (broadcastInDim S1700000 ![] bcast_S_S1700000 (constantI S_ 32 0#32)))
    (addi (joined x) (broadcastInDim S1700000 ![] bcast_S_S1700000 (constantI S_ 32 100000#32))) (joined x)

theorem scalar_apply (c : BitVec 32) (p : S1700000.Idx) :
    broadcastInDim S1700000 ![] bcast_S_S1700000 (constantI S_ 32 c) p = c := bcast0_apply _ _ p

theorem wrapped_apply (x : IVec S1600000 32) (p : S1700000.Idx) :
    wrapped x p = Scalar.select (IntOp.cmpi .slt (joined x p) 0#32) (IntOp.addi (joined x p) 100000#32) (joined x p) := by
  show Scalar.select (IntOp.cmpi .slt (joined x p) (broadcastInDim S1700000 ![] bcast_S_S1700000 (constantI S_ 32 0#32) p))
    (IntOp.addi (joined x p) (broadcastInDim S1700000 ![] bcast_S_S1700000 (constantI S_ 32 100000#32) p)) (joined x p) = _
  rw [scalar_apply, scalar_apply]

def zeros (s : Shape) (h : S_.BroadcastsInDim s ![]) : FVec Ideal s .f32 :=
  broadcastInDim s ![] h (constant (F := Ideal) S_ .f32 0x00000000#32)
def ones (s : Shape) (h : S_.BroadcastsInDim s ![]) : FVec Ideal s .f32 :=
  broadcastInDim s ![] h (constant (F := Ideal) S_ .f32 0x3F800000#32)

theorem zeros_apply {s : Shape} (h : S_.BroadcastsInDim s ![]) (i : s.Idx) : zeros s h i = 0 :=
  (bcast0_apply h _ i).trans Ideal.ofBits_zero_f32

theorem ones_apply {s : Shape} (h : S_.BroadcastsInDim s ![]) (i : s.Idx) : ones s h i = Cert.Spec.one :=
  bcast0_apply h _ i

-- Ones scattered over the joined destinations count the degree with its self loop.
theorem deg_apply (x2 : IVec S1600000 32) (n : Fin 100000) :
    Host.scatterAdd scatter_S100000_S1700000x1_S1700000_n_0_0_1 (zeros S100000 bcast_S_S100000) (col (joined x2))
      (ones S1700000 bcast_S_S1700000) (ix1 n)
    = Cert.Spec.deg (Cert.Arr.words x2) n := by
  refine (Cert.LibSegmentCount.scatterAdd_vec_apply scatter_S100000_S1700000x1_S1700000_n_0_0_1_wf _ _ _ n).trans ?_
  rw [zeros_apply, zero_add]
  simp only [col_apply, ones_apply]
  rw [sum_joined]
  simp only [joined_edge, joined_loop, loop_toInt]
  rw [sum_loops n (fun _ => Cert.Spec.one)]
  rfl

theorem agg_apply (T : FVec Ideal S100000x128 .f32) (x1 x2 : IVec S1600000 32) (n : Fin 100000) (k : Fin 128) :
    Host.scatterAdd scatter_S100000x128_S1700000x1_S1700000x128_1_0_0_1 (zeros S100000x128 bcast_S_S100000x128)
      (col (joined x2))
      (Host.gather gather_S100000x128_S1700000x1_S1700000x128_1_0_n_n_0_1_1128 T (col (wrapped x1))) (ix2 n k)
    = Cert.Spec.agg (fun n k => T (ix2 n k)) (Cert.Arr.words x1) (Cert.Arr.words x2) n k := by
  refine (Cert.LibSegmentSum.scatterAdd_row_apply scatter_S100000x128_S1700000x1_S1700000x128_1_0_0_1_wf _ _ _ n k).trans ?_
  rw [zeros_apply, zero_add]
  have hg : ∀ p : Fin 1700000, Host.gather gather_S100000x128_S1700000x1_S1700000x128_1_0_n_n_0_1_1128 T
        (col (wrapped x1)) (ix2 p k) = T (ix2 (Cert.Spec.wrapRow (joined x1 (ix1 p))) k) := fun p =>
    (gather_row_apply (by decide) gather_S100000x128_S1700000x1_S1700000x128_1_0_n_n_0_1_1128_wf T _ p k).trans
      (by rw [col_apply, wrapped_apply]; rfl)
  simp only [col_apply, hg]
  rw [sum_joined]
  simp only [joined_edge, joined_loop, loop_toInt, loop_wrapRow]
  rw [sum_loops n fun j => T (ix2 j k)]
  rfl

open Cert.ReferenceIdeal.Read

variable (x0 T : (⟨S100000x128, .f32⟩ : BufTy).Contents (Elt Ideal)) (x1 x2 : (⟨S1600000, .i32⟩ : BufTy).Contents (Elt Ideal))
  (x4 x5 : (⟨S128x128, .f32⟩ : BufTy).Contents (Elt Ideal)) (x6 : (⟨S128, .f32⟩ : BufTy).Contents (Elt Ideal))

theorem v6_eq : val_main_v6 (F := Ideal) x2 = Host.scatterAdd scatter_S100000_S1700000x1_S1700000_n_0_0_1 (zeros S100000 bcast_S_S100000)
    (col (joined x2)) (ones S1700000 bcast_S_S1700000) := rfl

-- The reference's degree factor is the inverse square root of the degree with its self loop.
theorem ref_norm : (val_main_v9 (F := Ideal) x2 : Cert.Arr.SN.Idx → EReal) = fun i => Cert.Spec.norm (Cert.Arr.words x2) (i 0) := by
  funext i
  obtain ⟨n, rfl⟩ : ∃ n : Fin 100000, i = ix1 n := ⟨i 0, eq_ix1 i⟩
  rw [val_main_v9_apply, val_main_v8_apply, val_main_v7_apply, val_main_cst_1_apply, v6_eq, deg_apply,
    Ideal.hostUnary_rsqrt_def, Ideal.maximumf_def, Ideal.ofBits_def]
  rfl

theorem ref_pre1 : val_main_v12 (F := Ideal) x0 x2 = Cert.Arr.PreArr x0 (Cert.Arr.NormArr x2) := by
  funext i
  rw [val_main_v12_apply, val_main_v11_apply, val_main_v10_apply, ref_norm]
  rfl

-- Wrap the joined sources, gather their rows, scatter them by the joined destinations onto zeros: one propagation.
theorem ref_agg_chain :
    Host.scatterAdd (F := Ideal) (φ := .f32) scatter_S100000x128_S1700000x1_S1700000x128_1_0_0_1 (val_main_v20 (F := Ideal)) (val_main_v21 (F := Ideal) x2)
      (Host.gather gather_S100000x128_S1700000x1_S1700000x128_1_0_n_n_0_1_1128 T (val_main_v18 (F := Ideal) x1))
    = Cert.Arr.AggArr T x1 x2 := by
  funext i
  obtain ⟨n, k, rfl⟩ : ∃ (n : Fin 100000) (k : Fin 128), i = ix2 n k := ⟨i 0, i 1, eq_ix2 i⟩
  exact agg_apply T x1 x2 n k

theorem ref_agg1 : val_main_v22 (F := Ideal) x0 x1 x2 = Cert.Arr.AggArr (val_main_v12 (F := Ideal) x0 x2) x1 x2 :=
  ref_agg_chain (val_main_v12 (F := Ideal) x0 x2) x1 x2

theorem ref_agg2 : val_main_v59 (F := Ideal) x0 x1 x2 x4 x5 x6 = Cert.Arr.AggArr (val_main_v49 (F := Ideal) x0 x1 x2 x4 x5 x6) x1 x2 :=
  ref_agg_chain (val_main_v49 (F := Ideal) x0 x1 x2 x4 x5 x6) x1 x2

end Cert.ReferenceIdeal.RefValue

end
-- ==== Proof.Ref.Layers.lean ====
import proofs.«414551_j48034914238531_3_alg».proof.Proof.Ref.Gen
import proofs.«414551_j48034914238531_3_alg».proof.Proof.Arr
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

variable (x0 : (⟨S100000x128, .f32⟩ : BufTy).Contents (Elt Ideal)) (x1 x2 : (⟨S1600000, .i32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (n : Fin 100000) (d k : Fin 128)

-- A broadcast column reads its row's entry, a broadcast row its column's; a product reads row n of the left and column d of the right.
theorem col_idx23 : idx_main_v23 (idx_main_v24 (ix2 n k)) = ix1 n := eq_ix1 _
theorem col_idx47 : idx_main_v47 (idx_main_v48 (ix2 n k)) = ix1 n := eq_ix1 _
theorem col_idx60 : idx_main_v60 (idx_main_v61 (ix2 n k)) = ix1 n := eq_ix1 _
theorem row_idx43 : idx_main_v43 (idx_main_v44 (ix2 n d)) = ix1 d := eq_ix1 _
theorem row_idx80 : idx_main_v80 (idx_main_v81 (ix2 n d)) = ix1 d := eq_ix1 _
theorem lhs_idx32 : lidx_main_v32 (ix2 n d) k = ix2 n k := eq_ix2 _
theorem rhs_idx32 : ridx_main_v32 (ix2 n d) k = ix2 k d := eq_ix2 _
theorem lhs_idx39 : lidx_main_v39 (ix2 n d) k = ix2 n k := eq_ix2 _
theorem rhs_idx39 : ridx_main_v39 (ix2 n d) k = ix2 k d := eq_ix2 _
theorem lhs_idx69 : lidx_main_v69 (ix2 n d) k = ix2 n k := eq_ix2 _
theorem rhs_idx69 : ridx_main_v69 (ix2 n d) k = ix2 k d := eq_ix2 _
theorem lhs_idx76 : lidx_main_v76 (ix2 n d) k = ix2 n k := eq_ix2 _
theorem rhs_idx76 : ridx_main_v76 (ix2 n d) k = ix2 k d := eq_ix2 _

theorem hs1 : val_main_v27 (F := Ideal) x0 x1 x2 (ix2 n k)
    = Cert.Spec.half * (val_main_v22 (F := Ideal) x0 x1 x2 (ix2 n k) * val_main_v9 (F := Ideal) x2 (ix1 n)) := by
  rw [val_main_v27_apply, val_main_v26_apply, val_main_cst_4_apply, val_main_v25_apply, val_main_v24_apply,
    val_main_v23_apply, col_idx23]
  rfl

theorem h0s1 : val_main_v29 (F := Ideal) x0 (ix2 n k) = Cert.Spec.half * x0 (ix2 n k) := by
  rw [val_main_v29_apply, val_main_v28_apply, val_main_cst_5_apply]
  rfl

-- The first layer, from the aggregate to the rows scaled for the second propagation.
theorem ref_layer1 : val_main_v49 (F := Ideal) x0 x1 x2 x4 x5 x6 (ix2 n d)
    = Cert.Spec.layer Cert.Spec.ca1 Cert.Spec.cb1 (fun n k => val_main_v22 (F := Ideal) x0 x1 x2 (ix2 n k)) (fun n k => x0 (ix2 n k))
        (fun n => val_main_v9 (F := Ideal) x2 (ix1 n)) (fun k d => x4 (ix2 k d)) (fun k d => x5 (ix2 k d)) (fun d => x6 (ix1 d)) n d
      * val_main_v9 (F := Ideal) x2 (ix1 n) := by
  rw [val_main_v49_apply, val_main_v48_apply, val_main_v47_apply, col_idx47, val_main_v46_apply, val_main_call0_v0_apply,
    val_main_call0_cst_apply, val_main_v45_apply, val_main_v44_apply, val_main_v43_apply, row_idx43, val_main_v42_apply,
    val_main_v41_apply, val_main_v40_apply, val_main_cst_9_apply, val_main_v39_apply, val_main_v38_apply,
    val_main_v37_apply, val_main_v36_apply, val_main_cst_8_apply, val_main_v35_apply, val_main_v34_apply,
    val_main_v33_apply, val_main_cst_7_apply, val_main_v32_apply, val_main_v31_apply, val_main_v30_apply,
    val_main_cst_6_apply]
  simp only [lhs_idx32, rhs_idx32, lhs_idx39, rhs_idx39, hs1, h0s1, Ideal.mulf_def, Ideal.addf_def, Ideal.maximumf_def,
    Ideal.ofBits_def, Ideal.ofBits_zero_f32]
  rfl

theorem hs2 : val_main_v64 (F := Ideal) x0 x1 x2 x4 x5 x6 (ix2 n k)
    = Cert.Spec.half * (val_main_v59 (F := Ideal) x0 x1 x2 x4 x5 x6 (ix2 n k) * val_main_v9 (F := Ideal) x2 (ix1 n)) := by
  rw [val_main_v64_apply, val_main_v63_apply, val_main_cst_13_apply, val_main_v62_apply, val_main_v61_apply,
    val_main_v60_apply, col_idx60]
  rfl

theorem h0s2 : val_main_v66 (F := Ideal) x0 (ix2 n k) = Cert.Spec.half * x0 (ix2 n k) := by
  rw [val_main_v66_apply, val_main_v65_apply, val_main_cst_14_apply]
  rfl

-- The second layer, from the aggregate to the rectified rows.
theorem ref_layer2 : val_main_v83 (F := Ideal) x0 x1 x2 x4 x5 x6 x7 x8 x9 (ix2 n d)
    = Cert.Spec.layer Cert.Spec.ca2 Cert.Spec.cb2 (fun n k => val_main_v59 (F := Ideal) x0 x1 x2 x4 x5 x6 (ix2 n k)) (fun n k => x0 (ix2 n k))
        (fun n => val_main_v9 (F := Ideal) x2 (ix1 n)) (fun k d => x7 (ix2 k d)) (fun k d => x8 (ix2 k d)) (fun d => x9 (ix1 d)) n d := by
  rw [val_main_v83_apply, val_main_call1_v0_apply, val_main_call1_cst_apply, val_main_v82_apply, val_main_v81_apply,
    val_main_v80_apply, row_idx80, val_main_v79_apply, val_main_v78_apply, val_main_v77_apply, val_main_cst_18_apply,
    val_main_v76_apply, val_main_v75_apply, val_main_v74_apply, val_main_v73_apply, val_main_cst_17_apply,
    val_main_v72_apply, val_main_v71_apply, val_main_v70_apply, val_main_cst_16_apply, val_main_v69_apply,
    val_main_v68_apply, val_main_v67_apply, val_main_cst_15_apply]
  simp only [lhs_idx69, rhs_idx69, lhs_idx76, rhs_idx76, hs2, h0s2, Ideal.mulf_def, Ideal.addf_def, Ideal.maximumf_def,
    Ideal.ofBits_def, Ideal.ofBits_zero_f32]
  rfl

end Cert.ReferenceIdeal.RefValue

end
-- ==== Proof.Ref.Net.lean ====
import proofs.«414551_j48034914238531_3_alg».proof.Proof.Ref.Chain
import proofs.«414551_j48034914238531_3_alg».proof.Proof.Ref.Layers
import proofs.«414551_j48034914238531_3_alg».proof.Proof.Arr
import proofs.«414551_j48034914238531_3_alg».proof.Proof.LibSegmentCount
import proofs.«414551_j48034914238531_3_alg».proof.Proof.LibSegmentSum
import proofs.«414551_j48034914238531_3_alg».proof.Proof.LibRowIndex
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Spec Cert.Arr
open scoped BigOperators

theorem one_eq : Cert.Spec.one = 1 := IdealRules.sign_bit.ideal_onePat .f32

-- 1 / (1 + exp (-x)) is the logistic function.
theorem logistic_spelt (x : EReal) : Ideal.div one (one + Ideal.exp (-x)) = Ideal.logistic x := by
  rw [one_eq]; rfl

variable (x0 : (⟨S100000x128, .f32⟩ : BufTy).Contents (Elt Ideal)) (x1 x2 : (⟨S1600000, .i32⟩ : BufTy).Contents (Elt Ideal))
  (x3 : (⟨S100000, .i32⟩ : BufTy).Contents (Elt Ideal)) (x4 x5 : (⟨S128x128, .f32⟩ : BufTy).Contents (Elt Ideal))
  (x6 : (⟨S128, .f32⟩ : BufTy).Contents (Elt Ideal)) (x7 x8 : (⟨S128x128, .f32⟩ : BufTy).Contents (Elt Ideal))
  (x9 : (⟨S128, .f32⟩ : BufTy).Contents (Elt Ideal)) (x10 : (⟨S128x32, .f32⟩ : BufTy).Contents (Elt Ideal))
  (x11 : (⟨S32, .f32⟩ : BufTy).Contents (Elt Ideal)) (x12 : (⟨S32x1, .f32⟩ : BufTy).Contents (Elt Ideal))
  (x13 : (⟨S1, .f32⟩ : BufTy).Contents (Elt Ideal)) (g : Fin 64)

theorem ref_v49_eq : val_main_v49 (F := Ideal) x0 x1 x2 x4 x5 x6
    = G0 (AggArr (PreArr x0 (NormArr x2)) x1 x2) x0 (NormArr x2) x4 x5 (rowOf x6) := by
  funext i
  obtain ⟨n, d, rfl⟩ : ∃ n d, i = ix2 n d := ⟨i 0, i 1, eq_ix2 i⟩
  rw [ref_layer1, ref_agg1, ref_pre1, ref_norm]
  rfl

theorem ref_v83_eq (n : Fin 100000) (d : Fin 128) : val_main_v83 (F := Ideal) x0 x1 x2 x4 x5 x6 x7 x8 x9 (ix2 n d)
    = X2 (AggArr (G0 (AggArr (PreArr x0 (NormArr x2)) x1 x2) x0 (NormArr x2) x4 x5 (rowOf x6)) x1 x2) x0 (NormArr x2) x7 x8 (rowOf x9) n d := by
  rw [ref_layer2, ref_agg2, ref_v49_eq, ref_norm]
  rfl

-- The id column both poolings scatter by is the id vector.
theorem ref_gid : (fun n => val_main_v86 (F := Ideal) x3 (ix2 n (0 : Fin 1))) = fun n => colOf x3 (ix2 n (0 : Fin 1)) :=
  funext fun n => (val_main_v86_apply x3 _).trans (congrArg x3 (eq_ix1 _))

-- Ones scattered onto zeros by the graph ids count the rows of each graph.
theorem ref_count : val_main_v87 (F := Ideal) x3 (ix1 g) = ∑ _n ∈ members (fun n => colOf x3 (ix2 n (0 : Fin 1))) g, one := by
  have hz : val_main_v85 (F := Ideal) (ix1 g) = 0 := by
    rw [val_main_v85_apply, val_main_cst_20_apply]; exact Ideal.ofBits_zero_f32
  have hu : ∀ i, val_main_v84 (F := Ideal) i = one := fun i => by
    rw [val_main_v84_apply, val_main_cst_19_apply]; rfl
  rw [← ref_gid]
  refine (Cert.LibSegmentCount.scatterAdd_vec_apply Cert.ReferenceIdeal.Gen.scatter_S64_S100000x1_S100000_n_0_0_1_wf
    (val_main_v85 (F := Ideal)) (val_main_v86 (F := Ideal) x3) (val_main_v84 (F := Ideal)) g).trans ?_
  rw [hz, zero_add]
  exact Finset.sum_congr rfl fun e _ => hu _

-- The rows scattered onto zeros by the graph ids are summed graph by graph.
theorem ref_pool (k : Fin 128) : val_main_v90 (F := Ideal) x0 x1 x2 x3 x4 x5 x6 x7 x8 x9 (ix2 g k)
    = ∑ n ∈ members (fun n => colOf x3 (ix2 n (0 : Fin 1))) g, val_main_v83 (F := Ideal) x0 x1 x2 x4 x5 x6 x7 x8 x9 (ix2 n k) := by
  have hz : val_main_v88 (F := Ideal) (ix2 g k) = 0 := by
    rw [val_main_v88_apply, val_main_cst_21_apply]; exact Ideal.ofBits_zero_f32
  rw [← ref_gid]
  refine (Cert.LibSegmentSum.scatterAdd_row_apply Cert.ReferenceIdeal.Gen.scatter_S64x128_S100000x1_S100000x128_1_0_0_1_wf
    (val_main_v88 (F := Ideal)) (val_main_v89 (F := Ideal) x3) (val_main_v83 (F := Ideal) x0 x1 x2 x4 x5 x6 x7 x8 x9) g k).trans ?_
  rw [hz, zero_add]
  rfl

theorem ref_mean (k : Fin 128) : val_main_v95 (F := Ideal) x0 x1 x2 x3 x4 x5 x6 x7 x8 x9 (ix2 g k)
    = Ideal.div (val_main_v90 (F := Ideal) x0 x1 x2 x3 x4 x5 x6 x7 x8 x9 (ix2 g k)) (max (val_main_v87 (F := Ideal) x3 (ix1 g)) one) := by
  rw [val_main_v95_apply, val_main_v94_apply, val_main_v93_apply, val_main_v92_apply, val_main_v91_apply,
    val_main_cst_22_apply, show idx_main_v93 (idx_main_v94 (ix2 g k)) = ix1 g from eq_ix1 _]
  rfl

theorem ref_hidden (j : Fin 32) : val_main_v100 (F := Ideal) x0 x1 x2 x3 x4 x5 x6 x7 x8 x9 x10 x11 (ix2 g j)
    = max ((∑ k, val_main_v95 (F := Ideal) x0 x1 x2 x3 x4 x5 x6 x7 x8 x9 (ix2 g k) * x10 (ix2 k j)) + rowOf x11 (ix2 (0 : Fin 1) j)) 0 := by
  have el : ∀ k, lidx_main_v96 (ix2 g j) k = ix2 g k := fun _ => eq_ix2 _
  have er : ∀ k, ridx_main_v96 (ix2 g j) k = ix2 k j := fun _ => eq_ix2 _
  have h0 : val_main_call2_v0 (F := Ideal) (ix2 g j) = 0 := by
    rw [val_main_call2_v0_apply, val_main_call2_cst_apply]; exact Ideal.ofBits_zero_f32
  rw [val_main_v100_apply, val_main_v99_apply, val_main_v96_apply, val_main_v98_apply, val_main_v97_apply, h0,
    show idx_main_v97 (idx_main_v98 (ix2 g j)) = ix1 j from eq_ix1 _]
  simp only [el, er]
  rfl

theorem ref_logit : val_main_v104 (F := Ideal) x0 x1 x2 x3 x4 x5 x6 x7 x8 x9 x10 x11 x12 x13 (ix2 g (0 : Fin 1))
    = (∑ j, val_main_v100 (F := Ideal) x0 x1 x2 x3 x4 x5 x6 x7 x8 x9 x10 x11 (ix2 g j) * x12 (ix2 j (0 : Fin 1)))
      + rowOf x13 (ix2 (0 : Fin 1) (0 : Fin 1)) := by
  have el : ∀ j, lidx_main_v101 (ix2 g (0 : Fin 1)) j = ix2 g j := fun _ => eq_ix2 _
  have er : ∀ j, ridx_main_v101 (ix2 g (0 : Fin 1)) j = ix2 j (0 : Fin 1) := fun _ => eq_ix2 _
  rw [val_main_v104_apply, val_main_v101_apply, val_main_v103_apply, val_main_v102_apply,
    show idx_main_v102 (idx_main_v103 (ix2 g (0 : Fin 1))) = ix1 (0 : Fin 1) from eq_ix1 _]
  simp only [el, er]
  rfl

-- The reference computes the network, stage by stage.
theorem ref_net : (val_main_v110 (F := Ideal) x0 x1 x2 x3 x4 x5 x6 x7 x8 x9 x10 x11 x12 x13 : Cert.Arr.SGx1.Idx → EReal)
    = Cert.Arr.Net x0 x1 x2 x3 x4 x5 x6 x7 x8 x9 x10 x11 x12 x13 := by
  funext i
  obtain ⟨g, q, rfl⟩ : ∃ g q, i = ix2 g q := ⟨i 0, i 1, eq_ix2 i⟩
  obtain rfl : q = (0 : Fin 1) := Subsingleton.elim _ _
  rw [val_main_v110_apply, val_main_v109_apply, val_main_cst_24_apply, val_main_v108_apply, val_main_v107_apply,
    val_main_cst_23_apply, val_main_v106_apply, val_main_v105_apply, ref_logit]
  simp only [ref_hidden, ref_mean, ref_pool, ref_count, ref_v83_eq, Ideal.hostDivf_def, Ideal.addf_def, Ideal.ofBits_def,
    Ideal.hostUnary_exp_def, Ideal.hostNegf_def, Ideal.negf_def]
  refine (logistic_spelt _).trans ?_
  rfl

end Cert.ReferenceIdeal.RefValue

end
-- ==== Proof.lean ====
import proofs.«414551_j48034914238531_3_alg».proof.Defs
import proofs.«414551_j48034914238531_3_alg».proof.Proof.Gen.Kernel
import proofs.«414551_j48034914238531_3_alg».proof.Proof.Gen.KernelIdeal
import proofs.«414551_j48034914238531_3_alg».proof.Proof.Gen.ReferenceIdeal
import proofs.«414551_j48034914238531_3_alg».proof.Proof.Gen.Pre_finite_inputs
import proofs.«414551_j48034914238531_3_alg».proof.Proof.KB.Run
import proofs.«414551_j48034914238531_3_alg».proof.Proof.Val.KNet
import proofs.«414551_j48034914238531_3_alg».proof.Proof.Ref.Net
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frameH (F := Bits) m ρ

theorem frame_ki : @Cert.frame_KernelIdeal Cert.KernelIdeal.Gen.facts Cert.Pre_finite_inputs.Gen.facts :=
  fun m ρ _ => Cert.KernelIdeal.Hand.frameH (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

-- Each run leaves the same function of its arguments in the result buffer, and the two runs' arguments agree.
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => (Cert.KernelIdeal.Hand.dat1 (F := Ideal) (Cert.KernelIdeal.Hand.Vt3 m ρ) c).arrAt 11 Cert.KernelIdeal.cfg1.N, Cert.KernelIdeal.Hand.run_all (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v110_eq, h0, h1, h2, h3, h4, h5, h6, h7, h8, h9, h10, h11, h12, h13]
  exact (Cert.ReferenceIdeal.RefValue.ref_net _ _ _ _ _ _ _ _ _ _ _ _ _ _).trans (Cert.KernelIdeal.Val.kernel_net m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
